-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x1024 : Shape := ⟨3, ![2048, 2, 1024]⟩
abbrev S1024x1024 : Shape := ⟨2, ![1024, 1024]⟩
abbrev S1024 : Shape := ⟨1, ![1024]⟩
abbrev S_ : Shape := ⟨0, ![]⟩

class Facts : Prop where
  bcast_S_S2048x2x1024 : S_.BroadcastsInDim S2048x2x1024 (![] : Fin 0 → Fin S2048x2x1024.rank)
  reducesTo_S2048x2x1024_S_d0_1_2 : S2048x2x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2048x2x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2048x2x1024 .f32 := Host.absf main_arg0
  let main_cst : FVec F S_ .f32 := constant S_ .f32 0x7F800000#32
  let main_v1 : FVec F S2048x2x1024 .f32 := broadcastInDim S2048x2x1024 ![] bcast_S_S2048x2x1024 main_cst
  let main_v2 : IVec S2048x2x1024 1 := cmpf .olt main_v0 main_v1
  let main_c : IVec S_ 1 := constantI S_ 1 1#1
  let main_v3 : IVec S_ 1 := (fun x v => Host.reduce IntOp.andi x v reducesTo_S2048x2x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2048x2x1024 : Shape := ⟨3, ![2048, 2, 1024]⟩
abbrev S1024x1024 : Shape := ⟨2, ![1024, 1024]⟩
abbrev S1024 : Shape := ⟨1, ![1024]⟩
abbrev S4096x1024 : Shape := ⟨2, ![4096, 1024]⟩
abbrev S1024x3072 : Shape := ⟨2, ![1024, 3072]⟩
abbrev S3072 : Shape := ⟨1, ![3072]⟩
abbrev S1x3072 : Shape := ⟨2, ![1, 3072]⟩
abbrev S4096x3072 : Shape := ⟨2, ![4096, 3072]⟩
abbrev S512x1024 : Shape := ⟨2, ![512, 1024]⟩
abbrev S512x3072 : Shape := ⟨2, ![512, 3072]⟩
abbrev S2048x2x3072 : Shape := ⟨3, ![2048, 2, 3072]⟩
abbrev S2x2048x3072 : Shape := ⟨3, ![2, 2048, 3072]⟩
abbrev S2x2048x1024 : Shape := ⟨3, ![2, 2048, 1024]⟩
abbrev S1x1024x128 : Shape := ⟨3, ![1, 1024, 128]⟩
abbrev S1024x1 : Shape := ⟨2, ![1024, 1]⟩
abbrev S1024x64 : Shape := ⟨2, ![1024, 64]⟩
abbrev S1024x128 : Shape := ⟨2, ![1024, 128]⟩
abbrev S64x1024 : Shape := ⟨2, ![64, 1024]⟩
abbrev S1x1024 : Shape := ⟨2, ![1, 1024]⟩

abbrev nBuf : Space → Nat
  | .hbm => 28
  | .vmem => 26
  | .smem => 0
  | _ => 0

abbrev bufTy : (tb : Table) → Fin (tcTables nBuf tb) → BufTy
  | .hbm, ⟨0, _⟩ => ⟨S2048x2x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S3072, .f32⟩
  | .hbm, ⟨16, _⟩ => ⟨S1x3072, .f32⟩
  | .hbm, ⟨17, _⟩ => ⟨S4096x3072, .bf16⟩
  | .hbm, ⟨18, _⟩ => ⟨S2048x2x3072, .bf16⟩
  | .hbm, ⟨19, _⟩ => ⟨S2x2048x3072, .bf16⟩
  | .hbm, ⟨20, _⟩ => ⟨S2x2048x1024, .bf16⟩
  | .hbm, ⟨21, _⟩ => ⟨S2048x2x1024, .bf16⟩
  | .hbm, ⟨22, _⟩ => ⟨S4096x1024, .bf16⟩
  | .hbm, ⟨23, _⟩ => ⟨S1024x1024, .f32⟩
  | .hbm, ⟨24, _⟩ => ⟨S1024x1024, .bf16⟩
  | .hbm, ⟨25, _⟩ => ⟨S1x1024, .f32⟩
  | .hbm, ⟨26, _⟩ => ⟨S4096x1024, .f32⟩
  | .hbm, ⟨27, _⟩ => ⟨S2048x2x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1024x1, .f32⟩
  | .local _ .vmem, ⟨15, _⟩ => ⟨S1024x1, .f32⟩
  | .local _ .vmem, ⟨16, _⟩ => ⟨S1024x64, .f32⟩
  | .local _ .vmem, ⟨17, _⟩ => ⟨S1024x1, .f32⟩
  | .local _ .vmem, ⟨18, _⟩ => ⟨S1024x1, .f32⟩
  | .local _ .vmem, ⟨19, _⟩ => ⟨S1024x64, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1x1024, .f32⟩
  | .local _ .vmem, ⟨24, _⟩ => ⟨S1024x1024, .f32⟩
  | .local _ .vmem, ⟨25, _⟩ => ⟨S1024x1024, .f32⟩
  | _, _ => ⟨S2048x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc1_scratch4 : Ref sig .tc := ⟨.vmem, 18, rfl⟩
abbrev cc1_scratch5 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨4, ![2, 8, 2, 2], ![false, false, false, false]⟩

def k1_cond3 (i : grid1.Coords) : BitVec 1 :=
  let arg3 : BitVec 32 := BitVec.ofNat 32 (i 3).val
  let c1_i32 : BitVec 32 := 1#32
  let v9 : BitVec 1 := Scalar.cmpi .eq arg3 c1_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c8_i32 : BitVec 32 := 8#32
  let v1 : BitVec 32 := Scalar.addi c8_i32 arg1
  let c0_i32 : BitVec 32 := 0#32
  ![arg0.toNat, v0.toNat, v1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c16_i32 : BitVec 32 := 16#32
  let v1 : BitVec 32 := Scalar.addi c16_i32 arg1
  let c0_i32 : BitVec 32 := 0#32
  ![arg0.toNat, v0.toNat, v1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true, false]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, true]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2048x2x1024_S4096x1024 : S2048x2x1024.ShapeCasts S4096x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2048x2x3072 : S4096x3072.ShapeCasts S2048x2x3072
  transposes_S2048x2x3072_S2x2048x3072_1_0_2 : S2048x2x3072.Transposes [1, 0, 2] S2x2048x3072
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  slices_S1024x128_o0_0_S1024x64 : S1024x128.Slices ![0, 0] S1024x64
  slices_S1024x128_o0_64_S1024x64 : S1024x128.Slices ![0, 64] S1024x64
  iota_S1024x1024_d0_w32 : S1024x1024.Iotas .tc 32 [0]
  iota_S1024x1024_d1_w32 : S1024x1024.Iotas .tc 32 [1]
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  concatenates_S1024x64_S1024x64_S1024x128_d1 : Shape.Concatenates [S1024x64, S1024x64] S1024x128 1
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  transposes_S2x2048x1024_S2048x2x1024_1_0_2 : S2x2048x1024.Transposes [1, 0, 2] S2048x2x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x1024_S2048x2x1024 : S4096x1024.ShapeCasts S2048x2x1024
  dot_S512x1024_S1024x3072_S512x3072_1_0_0_1_n_n_wf : DotDims.WF S512x1024 S1024x3072 S512x3072 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S2x2048x3072.size a
  hwx1_0 : ∀ i : grid1.Coords, EltTy.bits .bf16 = 32 ∨ (Rect.block (s := S2x2048x3072) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S2x2048x3072.size a
  hwx1_1 : ∀ i : grid1.Coords, EltTy.bits .bf16 = 32 ∨ (Rect.block (s := S2x2048x3072) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S2x2048x3072.size a
  hwx1_2 : ∀ i : grid1.Coords, EltTy.bits .bf16 = 32 ∨ (Rect.block (s := S2x2048x3072) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S2x2048x1024.size a
  hwx1_3 : ∀ i : grid1.Coords, EltTy.bits .bf16 = 32 ∨ (Rect.block (s := S2x2048x1024) S1x1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v13) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2048x2x1024 : Shape := ⟨3, ![2048, 2, 1024]⟩
abbrev S1024x1024 : Shape := ⟨2, ![1024, 1024]⟩
abbrev S1024 : Shape := ⟨1, ![1024]⟩
abbrev S1x1x1024 : Shape := ⟨3, ![1, 1, 1024]⟩
abbrev S2048x2x16x64 : Shape := ⟨4, ![2048, 2, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 70
  | .vmem => 0
  | .smem => 0
  | _ => 0

abbrev bufTy : (tb : Table) → Fin (tcTables nBuf tb) → BufTy
  | .hbm, ⟨0, _⟩ => ⟨S2048x2x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2048x2x1024, .f32⟩
  | .hbm, ⟨10, _⟩ => ⟨S1x1x1024, .f32⟩
  | .hbm, ⟨11, _⟩ => ⟨S2048x2x1024, .f32⟩
  | .hbm, ⟨12, _⟩ => ⟨S2048x2x1024, .f32⟩
  | .hbm, ⟨13, _⟩ => ⟨S2048x2x16x64, .f32⟩
  | .hbm, ⟨14, _⟩ => ⟨S2x16x2048x64, .f32⟩
  | .hbm, ⟨15, _⟩ => ⟨S2048x2x1024, .f32⟩
  | .hbm, ⟨16, _⟩ => ⟨S1x1x1024, .f32⟩
  | .hbm, ⟨17, _⟩ => ⟨S2048x2x1024, .f32⟩
  | .hbm, ⟨18, _⟩ => ⟨S2048x2x1024, .f32⟩
  | .hbm, ⟨19, _⟩ => ⟨S2048x2x16x64, .f32⟩
  | .hbm, ⟨20, _⟩ => ⟨S2x16x2048x64, .f32⟩
  | .hbm, ⟨21, _⟩ => ⟨S2048x2x1024, .f32⟩
  | .hbm, ⟨22, _⟩ => ⟨S1x1x1024, .f32⟩
  | .hbm, ⟨23, _⟩ => ⟨S2048x2x1024, .f32⟩
  | .hbm, ⟨24, _⟩ => ⟨S2048x2x1024, .f32⟩
  | .hbm, ⟨25, _⟩ => ⟨S2048x2x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S_, .f32⟩
  | .hbm, ⟨30, _⟩ => ⟨S2x16x2048x2048, .f32⟩
  | .hbm, ⟨31, _⟩ => ⟨S2x16x2048x2048, .f32⟩
  | .hbm, ⟨32, _⟩ => ⟨S_, .i1⟩
  | .hbm, ⟨33, _⟩ => ⟨S2048x2048, .i1⟩
  | .hbm, ⟨34, _⟩ => ⟨S2048x2048, .i32⟩
  | .hbm, ⟨35, _⟩ => ⟨S_, .i32⟩
  | .hbm, ⟨36, _⟩ => ⟨S2048x2048, .i32⟩
  | .hbm, ⟨37, _⟩ => ⟨S2048x2048, .i32⟩
  | .hbm, ⟨38, _⟩ => ⟨S2048x2048, .i32⟩
  | .hbm, ⟨39, _⟩ => ⟨S2048x2048, .i1⟩
  | .hbm, ⟨40, _⟩ => ⟨S_, .i1⟩
  | .hbm, ⟨41, _⟩ => ⟨S2048x2048, .i1⟩
  | .hbm, ⟨42, _⟩ => ⟨S2048x2048, .i1⟩
  | .hbm, ⟨43, _⟩ => ⟨S1x1x2048x2048, .i1⟩
  | .hbm, ⟨44, _⟩ => ⟨S_, .f32⟩
  | .hbm, ⟨45, _⟩ => ⟨S_, .f32⟩
  | .hbm, ⟨46, _⟩ => ⟨S2x16x2048x2048, .i1⟩
  | .hbm, ⟨47, _⟩ => ⟨S2x16x2048x2048, .f32⟩
  | .hbm, ⟨48, _⟩ => ⟨S2x16x2048x2048, .f32⟩
  | .hbm, ⟨49, _⟩ => ⟨S_, .f32⟩
  | .hbm, ⟨50, _⟩ => ⟨S2x16x2048, .f32⟩
  | .hbm, ⟨51, _⟩ => ⟨S_, .f32⟩
  | .hbm, ⟨52, _⟩ => ⟨S2x16x2048, .f32⟩
  | .hbm, ⟨53, _⟩ => ⟨S2x16x2048, .f32⟩
  | .hbm, ⟨54, _⟩ => ⟨S2x16x2048x1, .f32⟩
  | .hbm, ⟨55, _⟩ => ⟨S2x16x2048x2048, .f32⟩
  | .hbm, ⟨56, _⟩ => ⟨S2x16x2048x2048, .f32⟩
  | .hbm, ⟨57, _⟩ => ⟨S2x16x2048x2048, .f32⟩
  | .hbm, ⟨58, _⟩ => ⟨S_, .f32⟩
  | .hbm, ⟨59, _⟩ => ⟨S2x16x2048, .f32⟩
  | .hbm, ⟨60, _⟩ => ⟨S2x16x2048x1, .f32⟩
  | .hbm, ⟨61, _⟩ => ⟨S2x16x2048x2048, .f32⟩
  | .hbm, ⟨62, _⟩ => ⟨S2x16x2048x2048, .f32⟩
  | .hbm, ⟨63, _⟩ => ⟨S2x16x2048x64, .f32⟩
  | .hbm, ⟨64, _⟩ => ⟨S2048x2x16x64, .f32⟩
  | .hbm, ⟨65, _⟩ => ⟨S2048x2x1024, .f32⟩
  | .hbm, ⟨66, _⟩ => ⟨S2048x2x1024, .f32⟩
  | .hbm, ⟨67, _⟩ => ⟨S1x1x1024, .f32⟩
  | .hbm, ⟨68, _⟩ => ⟨S2048x2x1024, .f32⟩
  | .hbm, ⟨69, _⟩ => ⟨S2048x2x1024, .f32⟩
  | _, _ => ⟨S2048x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_v22 : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_0 : Ref sig .tc := ⟨.hbm, 40, rfl⟩
abbrev main_call0_v5 : Ref sig .tc := ⟨.hbm, 41, rfl⟩
abbrev main_v23 : Ref sig .tc := ⟨.hbm, 42, rfl⟩
abbrev main_v24 : Ref sig .tc := ⟨.hbm, 43, rfl⟩
abbrev main_cst_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_cst_1 : Ref sig .tc := ⟨.hbm, 49, rfl⟩
abbrev main_v26 : Ref sig .tc := ⟨.hbm, 50, rfl⟩
abbrev main_cst_2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2048x2x1024_0_1_2 : S1x1x1024.BroadcastsInDim S2048x2x1024 (![0, 1, 2] : Fin 3 → Fin S2048x2x1024.rank)
  shapeCasts_S2048x2x1024_S2048x2x16x64 : S2048x2x1024.ShapeCasts S2048x2x16x64
  transposes_S2048x2x16x64_S2x16x2048x64_1_2_0_3 : S2048x2x16x64.Transposes [1, 2, 0, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2048x2x16x64_2_0_1_3 : S2x16x2048x64.Transposes [2, 0, 1, 3] S2048x2x16x64
  shapeCasts_S2048x2x16x64_S2048x2x1024 : S2048x2x16x64.ShapeCasts S2048x2x1024
  dot_S2048x2x1024_S1024x1024_S2048x2x1024_2_1_01_0_n_n_wf : DotDims.WF S2048x2x1024 S1024x1024 S2048x2x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2048x2x1024_S1024x1024_S2048x2x1024_2_1_01_0_n_n : DotDims S2048x2x1024 S1024x1024 S2048x2x1024 where
  lhsContracting := [2]
  rhsContracting := [1]
  lhsNonContracting := [0, 1]
  rhsNonContracting := [0]
  lhsBatch := []
  rhsBatch := []
  wf := dot_S2048x2x1024_S1024x1024_S2048x2x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.R1Share.lean ====
import proofs.«410688_j9775345566104_3_alg».proof.Proof.Gen.KernelIdeal
import Idealize.SL.RA.TreeShare

namespace Cert.KernelIdeal.Hand

open Cert.KernelIdeal Cert.KernelIdeal.Gen
open Idealize.ShloMosaic Idealize.SL.RA Idealize.SL.RA.PCS

def q1 : Fin cfg1.W → PosShare TreeShare
  | 0 => fullShare.left
  | 1 => fullShare.right.left
  | 2 => fullShare.right.right
  | 3 => fullShare

theorem q1_0 : q1 0 = fullShare.left := rfl
theorem q1_1 : q1 1 = fullShare.right.left := rfl
theorem q1_2 : q1 2 = fullShare.right.right := rfl

theorem q1_split_full : fullShare ∈ q1 0 ·? fullShare.right := PosShare.mem_left_op_right fullShare

theorem q1_split_right : fullShare.right ∈ q1 1 ·? q1 2 := PosShare.mem_left_op_right fullShare.right

end Cert.KernelIdeal.Hand
-- ==== Proof.R0.lean ====
import proofs.«410688_j9775345566104_3_alg».proof.Proof.Gen.KernelIdeal.Launch
import proofs.«410688_j9775345566104_3_alg».proof.Proof.Gen.KernelIdeal.Skeleton
import proofs.«410688_j9775345566104_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
variable (V : (c : Dev nD) → (b : Ref sig .tc) → Buf (Elt F) ((c : Thread nD τ).loc b))

/-- Window `w`'s block at point `t` of the arrays the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-- The output block after the body: its one store, of the payload of the three loaded blocks. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

set_option maxHeartbeats 1000000 in
/-- The body's triple: the inputs' memrefs are left as read, the output's at `out0_3` of them, since the one store covers the block. -/
theorem sound_kernel0 (c : Dev nD) (E : Set ℕ) (i : grid0.Coords) (arg0 : Memref sig .tc .vmem S512x1024 .f32) (harg0 : arg0.IsWhole) (arg1 : Memref sig .tc .vmem S1024x3072 .bf16) (harg1 : arg1.IsWhole) (arg2 : Memref sig .tc .vmem S1x3072 .f32) (harg2 : arg2.IsWhole) (arg3 : Memref sig .tc .vmem S512x3072 .bf16) (harg3 : arg3.IsWhole)
    (x0 : Vec F S512x1024 .f32) (x1 : Vec F S1024x3072 .bf16) (x2 : Vec F S1x3072 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S512x3072.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- What the body leaves, window by window. -/
theorem after0 (c : Dev nD) (t : Fin cfg0.N) : (dat0 V c).after 0 t = iblk0 V c 0 t ∧ (dat0 V c).after 1 t = iblk0 V c 1 t
    ∧ (dat0 V c).after 2 t = iblk0 V c 2 t ∧ (dat0 V c).after 3 t = out0_3 (iblk0 V c 0 t) (iblk0 V c 1 t) (iblk0 V c 2 t) := by
  dsimp only [dat0]; exact ⟨rfl, rfl, rfl, rfl⟩

/-- What the body is handed for each input window is that window's block of the entry arrays. -/
theorem before0 (c : Dev nD) (t : Fin cfg0.N) : (∀ d, (dat0 V c).before 0 t d = iblk0 V c 0 t)
    ∧ (∀ d, (dat0 V c).before 1 t d = iblk0 V c 1 t) ∧ ∀ d, (dat0 V c).before 2 t d = iblk0 V c 2 t := by
  refine ⟨?_, ?_, ?_⟩ <;>
    exact fun d => ((dat0 V c).before_in_eq_fetched _ rfl (fun _ => rfl) (fun _ _ _ => rfl) (fun _ => rfl) t d).trans rfl

/-- The body's triple at a point of the grid, the invariant framed. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) fun _ =>
      iprop((dat0 V c).Φ t.succ ∗ (dat0 V c).owesAt () t.succ
        ∗ owns (c : Thread nD τ) (st0_0 t) fullShare ((dat0 V c).after 0 t) ∗ owns (c : Thread nD τ) (st0_1 t) fullShare ((dat0 V c).after 1 t)
        ∗ owns (c : Thread nD τ) (st0_2 t) fullShare ((dat0 V c).after 2 t) ∗ owns (c : Thread nD τ) (st0_3 t) fullShare ((dat0 V c).after 3 t)) := by
  obtain ⟨b0, b1, b2⟩ := before0 V c t
  obtain ⟨a0, a1, a2, a3⟩ := after0 V c t
  simp only [b0, b1, b2]
  rw [show (dat0 V c).Φ t.succ = (dat0 V c).Φ t.castSucc from rfl,
    show (dat0 V c).owesAt () t.succ = (dat0 V c).owesAt () t.castSucc from rfl, a0, a1, a2, a3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.R1Runs.lean ====
import proofs.«410688_j9775345566104_3_alg».proof.Proof.Gen.KernelIdeal.Launch
import proofs.«410688_j9775345566104_3_alg».proof.Proof.Gen.KernelIdeal.Skeleton
import proofs.«410688_j9775345566104_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 3).val) 0#32)) 0#32) = 1#1

theorem hcond1_0 : ∀ t : Fin cfg1.N, cond1_0 (grid1.coords t) ↔ t.val % 2 = 0 :=
  (by decide +kernel : ∀ t : Fin grid1.N, cond1_0 (grid1.coords t) ↔ t.val % 2 = 0)

abbrev cond1_1 (i : grid1.Coords) : Prop := (Scalar.cmpi .ne (Scalar.extui (Scalar.cmpi .sle (Scalar.muli (BitVec.ofNat 32 (i 3).val) 1024#32) (Scalar.addi (Scalar.muli (BitVec.ofNat 32 (i 2).val) 1024#32) 1023#32))) 0#32) = 1#1

theorem hcond1_1 : ∀ t : Fin cfg1.N, cond1_1 (grid1.coords t) ↔ t.val % 4 ≠ 1 :=
  (by decide +kernel : ∀ t : Fin grid1.N, cond1_1 (grid1.coords t) ↔ t.val % 4 ≠ 1)

abbrev cond1_2 (i : grid1.Coords) : Prop := k1_cond3 i = 1#1

theorem hcond1_2 : ∀ t : Fin cfg1.N, cond1_2 (grid1.coords t) ↔ t.val % 2 = 1 :=
  (by decide +kernel : ∀ t : Fin grid1.N, cond1_2 (grid1.coords t) ↔ t.val % 2 = 1)

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

theorem idleAt1_3_A : ∀ t : Fin cfg1.N, cond1_0 (grid1.coords t) → cond1_1 (grid1.coords t) → ¬cond1_2 (grid1.coords t) → cfg1.idle 3 (grid1.coords t) = true := by decide +kernel

theorem noFlush1_3_A : ∀ t : Fin cfg1.N, cond1_0 (grid1.coords t) → cond1_1 (grid1.coords t) → ¬cond1_2 (grid1.coords t) → (cfg1.win 3).flush t = false := by decide +kernel

theorem liveAt1_3_B : ∀ t : Fin cfg1.N, ¬cond1_0 (grid1.coords t) → ¬cond1_1 (grid1.coords t) → cond1_2 (grid1.coords t) → cfg1.idle 3 (grid1.coords t) = false := by decide +kernel

theorem liveAt1_3_C : ∀ t : Fin cfg1.N, ¬cond1_0 (grid1.coords t) → cond1_1 (grid1.coords t) → cond1_2 (grid1.coords t) → cfg1.idle 3 (grid1.coords t) = false := by decide +kernel

abbrev VO1_3 : View sig .tc .vmem S1x1024x128 .bf16 := (Memref.whole cc1_stg3_0 : Memref sig .tc .vmem S1x1024x128 .bf16).view

abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .bf16 := win1_3.stage (cfg1.slots t 3)
abbrev hs1_3 (t : Fin cfg1.N) : (ms1_3 t).IsWhole := hstage1_3 ((cfg1.slots t 3).cast nbuf1_3)

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev scM1_3 : Memref sig .tc .vmem S1024x1 .f32 := Memref.whole cc1_scratch3
abbrev scM1_4 : Memref sig .tc .vmem S1024x1 .f32 := Memref.whole cc1_scratch4
abbrev scM1_5 : Memref sig .tc .vmem S1024x64 .f32 := Memref.whole cc1_scratch5

abbrev VS1_0 : View sig .tc .vmem S1024x1 .f32 := scM1_0.view
abbrev VS1_1 : View sig .tc .vmem S1024x1 .f32 := scM1_1.view
abbrev VS1_2 : View sig .tc .vmem S1024x64 .f32 := scM1_2.view
abbrev VS1_3 : View sig .tc .vmem S1024x1 .f32 := scM1_3.view
abbrev VS1_4 : View sig .tc .vmem S1024x1 .f32 := scM1_4.view
abbrev VS1_5 : View sig .tc .vmem S1024x64 .f32 := scM1_5.view

end Cert.KernelIdeal.Hand

end
-- ==== Proof.R1RunA.lean ====
import proofs.«410688_j9775345566104_3_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in

noncomputable def kernelRun1_A (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x64 .f32) (harg13 : arg13.IsWhole) (hc0 : cond1_0 i) (hc1 : cond1_1 i) (hc2 : ¬cond1_2 i)
    (x0 : Vec F S1x1024x128 .bf16) (x1 : Vec F S1x1024x128 .bf16) (x2 : Vec F S1x1024x128 .bf16) :
    Σ' (L3 : List (View.Piece (Elt F) S1x1024x128 .bf16)), Σ' (LS0 : List (View.Piece (Elt F) S1024x1 .f32)), Σ' (LS1 : List (View.Piece (Elt F) S1024x1 .f32)), Σ' (LS2 : List (View.Piece (Elt F) S1024x64 .f32)), Σ' (LS3 : List (View.Piece (Elt F) S1024x1 .f32)), Σ' (LS4 : List (View.Piece (Elt F) S1024x1 .f32)), { LS5 : List (View.Piece (Elt F) S1024x64 .f32) //
      ∀ (xi3 : Vec F S1x1024x128 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg4 fullShare x0 ∗ owns (c : Thread nD τ) arg5 fullShare x1 ∗ owns (c : Thread nD τ) arg6 fullShare x2 ∗ owns (c : Thread nD τ) arg7 fullShare xi3 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ (∃ f, arg13.view.loc (c : Thread nD τ) ↦[arg13.view.set]{fullShare} arg13.view.writes (Elt F) f LS5)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨[], ?_, ?_, ?_, ?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg4.eq_unread hf0; obtain rfl := harg5.eq_unread hf1; obtain rfl := harg6.eq_unread hf2; obtain rfl := harg7.eq_unread hf3
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.R1RunB.lean ====
import proofs.«410688_j9775345566104_3_alg».proof.Proof.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in

noncomputable def kernelRun1_B (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x64 .f32) (harg13 : arg13.IsWhole) (hc0 : ¬cond1_0 i) (hc1 : ¬cond1_1 i) (hc2 : cond1_2 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    Σ' (L3 : List (View.Piece (Elt F) S1x1024x128 .bf16)), Σ' (LS0 : List (View.Piece (Elt F) S1024x1 .f32)), Σ' (LS1 : List (View.Piece (Elt F) S1024x1 .f32)), Σ' (LS2 : List (View.Piece (Elt F) S1024x64 .f32)), Σ' (LS3 : List (View.Piece (Elt F) S1024x1 .f32)), Σ' (LS4 : List (View.Piece (Elt F) S1024x1 .f32)), { LS5 : List (View.Piece (Elt F) S1024x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, [], [], [], [], [], [], fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg4.eq_unread hf0; obtain rfl := harg5.eq_unread hf1; obtain rfl := harg6.eq_unread hf2
    obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HS3]
    · iexists _; isplitr; · ipureintro; exact harg11.read_unread _
      iexact HS3
    isplitl [HS4]
    · iexists _; isplitr; · ipureintro; exact harg12.read_unread _
      iexact HS4
    iexists _; isplitr; · ipureintro; exact harg13.read_unread _
    iexact HS5

end Cert.KernelIdeal.Hand

end
-- ==== Proof.R1RunC.lean ====
import proofs.«410688_j9775345566104_3_alg».proof.Proof.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in

noncomputable def kernelRun1_C (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x64 .f32) (harg13 : arg13.IsWhole) (hc0 : ¬cond1_0 i) (hc1 : cond1_1 i) (hc2 : cond1_2 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    Σ' (L3 : List (View.Piece (Elt F) S1x1024x128 .bf16)), Σ' (LS0 : List (View.Piece (Elt F) S1024x1 .f32)), Σ' (LS1 : List (View.Piece (Elt F) S1024x1 .f32)), Σ' (LS2 : List (View.Piece (Elt F) S1024x64 .f32)), Σ' (LS3 : List (View.Piece (Elt F) S1024x1 .f32)), Σ' (LS4 : List (View.Piece (Elt F) S1024x1 .f32)), { LS5 : List (View.Piece (Elt F) S1024x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ (∃ f, arg13.view.loc (c : Thread nD τ) ↦[arg13.view.set]{fullShare} arg13.view.writes (Elt F) f LS5)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg4.eq_unread hf0; obtain rfl := harg5.eq_unread hf1; obtain rfl := harg6.eq_unread hf2
    obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.R1.lean ====
import proofs.«410688_j9775345566104_3_alg».proof.Proof.R1RunC
import proofs.«410688_j9775345566104_3_alg».proof.Proof.R1Share

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

theorem PhiA1_split (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d)) ∗ Rest1 (F := F) c ∗ (∃ r, prngReg c r)) := by
  unfold Pipeline.ΦA Rest1; rw [scopedRest1_eq]; simp only [scM1_0, scM1_1, scM1_2, scM1_3, scM1_4, scM1_5, owns_whole]
  refine Idealize.SL.BI.Entails.antisymm ?_ ?_
  · change (_ : sProp 𝕄) ⊢ _
    iintro ⟨⟨A0, A1, A2, A3, A4, A5, S0, S1, S2, S3, S4, S5, B0, B1, B2, B3, B4, B5⟩, Hg⟩
    iframe
  · change (_ : sProp 𝕄) ⊢ _
    iintro ⟨⟨S0, S1, S2, S3, S4, S5⟩, ⟨A0, A1, A2, A3, A4, A5, B0, B1, B2, B3, B4, B5⟩, Hg⟩
    iframe

section Region1

variable (V : (c : Dev nD) → (b : Ref sig .tc) → Buf (Elt F) ((c : Thread nD τ).loc b))

theorem caseA_c1 (t : Fin cfg1.N) (h0 : t.val % 2 = 0) : cond1_1 (grid1.coords t) :=
  (hcond1_1 t).mpr (by omega)

theorem caseA_c2 (t : Fin cfg1.N) (h0 : t.val % 2 = 0) : ¬cond1_2 (grid1.coords t) :=
  fun h => by have := (hcond1_2 t).mp h; omega

theorem caseBC_c0 (t : Fin cfg1.N) (h0 : ¬t.val % 2 = 0) : ¬cond1_0 (grid1.coords t) :=
  fun h => h0 ((hcond1_0 t).mp h)

theorem caseBC_c2 (t : Fin cfg1.N) (h0 : ¬t.val % 2 = 0) : cond1_2 (grid1.coords t) :=
  (hcond1_2 t).mpr (by omega)

theorem caseB_c1 (t : Fin cfg1.N) (h0 : ¬t.val % 2 = 0) (h1 : ¬t.val % 4 = 3) : ¬cond1_1 (grid1.coords t) :=
  fun h => (hcond1_1 t).mp h (by omega)

theorem caseC_c1 (t : Fin cfg1.N) (h1 : t.val % 4 = 3) : cond1_1 (grid1.coords t) :=
  (hcond1_1 t).mpr (by omega)

abbrev Scr1 (F : FTy → Type) : Type :=
  Vec F S1024x1 .f32 × Vec F S1024x1 .f32 × Vec F S1024x64 .f32 × Vec F S1024x1 .f32 × Vec F S1024x1 .f32 × Vec F S1024x64 .f32

/-- The body's run at point `t` in each control case; the odd cases read the scratch contents `s` the point before left. -/
def runA (c : Dev nD) (t : Fin cfg1.N) (h0 : t.val % 2 = 0) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_0 t).mpr h0) (caseA_c1 t h0) (caseA_c2 t h0) (iblk1 V c 0 t) (iblk1 V c 1 t) (iblk1 V c 2 t)
def runB (c : Dev nD) (t : Fin cfg1.N) (h0 : ¬t.val % 2 = 0) (h1 : ¬t.val % 4 = 3) (s : Scr1 F) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (caseBC_c0 t h0) (caseB_c1 t h0 h1) (caseBC_c2 t h0) (iblk1 V c 0 t) (iblk1 V c 1 t) (iblk1 V c 2 t) s.1 s.2.1 s.2.2.1 s.2.2.2.1 s.2.2.2.2.1 s.2.2.2.2.2
def runC (c : Dev nD) (t : Fin cfg1.N) (h0 : ¬t.val % 2 = 0) (h1 : t.val % 4 = 3) (s : Scr1 F) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (caseBC_c0 t h0) (caseC_c1 t h1) (caseBC_c2 t h0) (iblk1 V c 0 t) (iblk1 V c 1 t) (iblk1 V c 2 t) s.1 s.2.1 s.2.2.1 s.2.2.2.1 s.2.2.2.2.1 s.2.2.2.2.2

/-- Each buffer a case stores is tiled by the pieces stored, so they cover it. -/
theorem coverA (c : Dev nD) (t : Fin cfg1.N) (h0 : t.val % 2 = 0) :
    (∀ y, ∃ pc ∈ (runA V c t h0).2.1, y ∈ pc.1.set) ∧ (∀ y, ∃ pc ∈ (runA V c t h0).2.2.1, y ∈ pc.1.set) ∧ (∀ y, ∃ pc ∈ (runA V c t h0).2.2.2.1, y ∈ pc.1.set) ∧ (∀ y, ∃ pc ∈ (runA V c t h0).2.2.2.2.1, y ∈ pc.1.set) ∧ (∀ y, ∃ pc ∈ (runA V c t h0).2.2.2.2.2.1, y ∈ pc.1.set) ∧ (∀ y, ∃ pc ∈ (runA V c t h0).2.2.2.2.2.2.1, y ∈ pc.1.set) :=
  ⟨View.cover_of_tiledL _ S1024x1.size (by sl_kernel_rfl), View.cover_of_tiledL _ S1024x1.size (by sl_kernel_rfl), View.cover_of_tiledL _ S1024x64.size (by sl_kernel_rfl), View.cover_of_tiledL _ S1024x1.size (by sl_kernel_rfl), View.cover_of_tiledL _ S1024x1.size (by sl_kernel_rfl), View.cover_of_tiledL _ S1024x64.size (by sl_kernel_rfl)⟩
theorem coverB (c : Dev nD) (t : Fin cfg1.N) (h0 : ¬t.val % 2 = 0) (h1 : ¬t.val % 4 = 3) (s : Scr1 F) :
    (∀ y, ∃ pc ∈ (runB V c t h0 h1 s).1, y ∈ pc.1.set) :=
  View.cover_of_tiledL _ S1x1024x128.size (by sl_kernel_rfl)
theorem coverC (c : Dev nD) (t : Fin cfg1.N) (h0 : ¬t.val % 2 = 0) (h1 : t.val % 4 = 3) (s : Scr1 F) :
    (∀ y, ∃ pc ∈ (runC V c t h0 h1 s).1, y ∈ pc.1.set) ∧ (∀ y, ∃ pc ∈ (runC V c t h0 h1 s).2.1, y ∈ pc.1.set) ∧ (∀ y, ∃ pc ∈ (runC V c t h0 h1 s).2.2.1, y ∈ pc.1.set) ∧ (∀ y, ∃ pc ∈ (runC V c t h0 h1 s).2.2.2.1, y ∈ pc.1.set) ∧ (∀ y, ∃ pc ∈ (runC V c t h0 h1 s).2.2.2.2.1, y ∈ pc.1.set) ∧ (∀ y, ∃ pc ∈ (runC V c t h0 h1 s).2.2.2.2.2.1, y ∈ pc.1.set) ∧ (∀ y, ∃ pc ∈ (runC V c t h0 h1 s).2.2.2.2.2.2.1, y ∈ pc.1.set) :=
  ⟨View.cover_of_tiledL _ S1x1024x128.size (by sl_kernel_rfl), View.cover_of_tiledL _ S1024x1.size (by sl_kernel_rfl), View.cover_of_tiledL _ S1024x1.size (by sl_kernel_rfl), View.cover_of_tiledL _ S1024x64.size (by sl_kernel_rfl), View.cover_of_tiledL _ S1024x1.size (by sl_kernel_rfl), View.cover_of_tiledL _ S1024x1.size (by sl_kernel_rfl), View.cover_of_tiledL _ S1024x64.size (by sl_kernel_rfl)⟩

/-- What a case leaves at point `t`: the output block, then the six scratch buffers, as the stored pieces read back. -/
def stA (c : Dev nD) (t : Fin cfg1.N) (h0 : t.val % 2 = 0) : Vec F S1x1024x128 .bf16 × Scr1 F :=
  (VO1_3.read (Elt F) (VO1_3.writes (Elt F) VO1_3.junk (runA V c t h0).1), VS1_0.read (Elt F) (VS1_0.writes (Elt F) VS1_0.junk (runA V c t h0).2.1),
   VS1_1.read (Elt F) (VS1_1.writes (Elt F) VS1_1.junk (runA V c t h0).2.2.1),
   VS1_2.read (Elt F) (VS1_2.writes (Elt F) VS1_2.junk (runA V c t h0).2.2.2.1),
   VS1_3.read (Elt F) (VS1_3.writes (Elt F) VS1_3.junk (runA V c t h0).2.2.2.2.1),
   VS1_4.read (Elt F) (VS1_4.writes (Elt F) VS1_4.junk (runA V c t h0).2.2.2.2.2.1),
   VS1_5.read (Elt F) (VS1_5.writes (Elt F) VS1_5.junk (runA V c t h0).2.2.2.2.2.2.1))
def stB (c : Dev nD) (t : Fin cfg1.N) (h0 : ¬t.val % 2 = 0) (h1 : ¬t.val % 4 = 3) (s : Scr1 F) : Vec F S1x1024x128 .bf16 × Scr1 F :=
  (VO1_3.read (Elt F) (VO1_3.writes (Elt F) VO1_3.junk (runB V c t h0 h1 s).1), s)
def stC (c : Dev nD) (t : Fin cfg1.N) (h0 : ¬t.val % 2 = 0) (h1 : t.val % 4 = 3) (s : Scr1 F) : Vec F S1x1024x128 .bf16 × Scr1 F :=
  (VO1_3.read (Elt F) (VO1_3.writes (Elt F) VO1_3.junk (runC V c t h0 h1 s).1), VS1_0.read (Elt F) (VS1_0.writes (Elt F) VS1_0.junk (runC V c t h0 h1 s).2.1),
   VS1_1.read (Elt F) (VS1_1.writes (Elt F) VS1_1.junk (runC V c t h0 h1 s).2.2.1),
   VS1_2.read (Elt F) (VS1_2.writes (Elt F) VS1_2.junk (runC V c t h0 h1 s).2.2.2.1),
   VS1_3.read (Elt F) (VS1_3.writes (Elt F) VS1_3.junk (runC V c t h0 h1 s).2.2.2.2.1),
   VS1_4.read (Elt F) (VS1_4.writes (Elt F) VS1_4.junk (runC V c t h0 h1 s).2.2.2.2.2.1),
   VS1_5.read (Elt F) (VS1_5.writes (Elt F) VS1_5.junk (runC V c t h0 h1 s).2.2.2.2.2.2.1))

/-- The contents after the body at position `n`: an odd point works over what the point before left. -/
def outsAt1 (c : Dev nD) : (n : ℕ) → n < cfg1.N → Vec F S1x1024x128 .bf16 × Scr1 F
  | 0, hn => stA V c ⟨0, hn⟩ (Nat.zero_mod _)
  | n + 1, hn =>
    if h0 : (n + 1) % 2 = 0 then stA V c ⟨n + 1, hn⟩ h0
    else if h1 : (n + 1) % 4 = 3 then stC V c ⟨n + 1, hn⟩ h0 h1 (outsAt1 c n (Nat.lt_of_succ_lt hn)).2
    else stB V c ⟨n + 1, hn⟩ h0 h1 (outsAt1 c n (Nat.lt_of_succ_lt hn)).2

theorem outsAt1_A (c : Dev nD) (t : Fin cfg1.N) (h0 : t.val % 2 = 0) : outsAt1 V c t.val t.isLt = stA V c t h0 := by
  obtain ⟨n, hn⟩ := t
  cases n with
  | zero => exact rfl
  | succ n => exact (dif_pos h0).trans rfl

theorem outsAt1_B (c : Dev nD) (t : Fin cfg1.N) (h0 : ¬t.val % 2 = 0) (h1 : ¬t.val % 4 = 3) :
    outsAt1 V c t.val t.isLt = stB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 2 = 0) (h1 : t.val % 4 = 3) :
    outsAt1 V c t.val t.isLt = stC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2.1) ∗ owns (c : Thread nD τ) scM1_4 fullShare ((outsAt1 V c n hn).2.2.2.2.2.1) ∗ owns (c : Thread nD τ) scM1_5 fullShare ((outsAt1 V c n hn).2.2.2.2.2.2)) ∗ Rest1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2.1) ∗ owns (c : Thread nD τ) scM1_4 fullShare ((outsAt1 V c n hn).2.2.2.2.2.1) ∗ owns (c : Thread nD τ) scM1_5 fullShare ((outsAt1 V c n hn).2.2.2.2.2.2)) ∗ Rest1 (F := F) c ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2.1) ∗ owns (c : Thread nD τ) scM1_4 fullShare ((outsAt1 V c (n - 1) (by omega)).2.2.2.2.2.1) ∗ owns (c : Thread nD τ) scM1_5 fullShare ((outsAt1 V c (n - 1) (by omega)).2.2.2.2.2.2)) ∗ Rest1 (F := F) c ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- What the body is handed for each input window is that window's block of the entry array. -/
theorem before1 (c : Dev nD) (t : Fin cfg1.N) : (∀ d, (dat1 V c).before 0 t d = iblk1 V c 0 t)
    ∧ (∀ d, (dat1 V c).before 1 t d = iblk1 V c 1 t) ∧ ∀ d, (dat1 V c).before 2 t d = iblk1 V c 2 t := by
  refine ⟨?_, ?_, ?_⟩ <;>
    exact fun d => ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- Pieces that cover a whole memref determine what it holds, whatever it held before; read through any view. -/
theorem owns_writes {S : Shape} {e : EltTy} (c : Dev nD) (M : Memref sig .tc .vmem S e) (v : View sig .tc .vmem S e) (f)
    (L : List (View.Piece (Elt F) S e)) (hL : ∀ y, ∃ pc ∈ L, y ∈ pc.1.set) :
    (iprop(M.view.loc (c : Thread nD τ) ↦[M.view.set]{fullShare} M.view.writes (Elt F) f L) : sProp 𝕄)
      ⊢ owns (c : Thread nD τ) M fullShare (v.read (Elt F) (v.writes (Elt F) v.junk L)) := by
  unfold owns; iintro H; iexists _; isplitr
  swap; · iexact H
  ipureintro; exact View.read_writes_of_cover _ _ _ _ _ hL

/-- Before any point the invariant entails the region's entry invariant: the scratch buffers' named contents are forgotten. -/
theorem PhiS1_any (c : Dev nD) (n : ℕ) (h : n ≤ cfg1.N) : PhiS1 V c n h ⊢ Pipeline.ΦA spec1 c := by
  cases n with
  | zero => exact Idealize.SL.BI.Entails.refl _
  | succ n =>
    rw [PhiS1_succ, PhiA1_split]
    iintro ⟨⟨HS0, HS1, HS2, HS3, HS4, HS5⟩, HR, Hg⟩
    isplitl [HS0 HS1 HS2 HS3 HS4 HS5]
    · isplitl [HS0]; · iexists _; iexact HS0
      isplitl [HS1]; · iexists _; iexact HS1
      isplitl [HS2]; · iexists _; iexact HS2
      isplitl [HS3]; · iexists _; iexact HS3
      isplitl [HS4]; · iexists _; iexact HS4
      iexists _; iexact HS5
    isplitl [HR]; · iexact HR
    iexact Hg

theorem leaves1_0 (c : Dev nD) (t : Fin cfg1.N) : (dat1 V c).leavesExact 0 t = owns (c : Thread nD τ) (ms1_0 t) fullShare (iblk1 V c 0 t) := by
  rw [← after1_0 V c t]
theorem leaves1_1 (c : Dev nD) (t : Fin cfg1.N) : (dat1 V c).leavesExact 1 t = owns (c : Thread nD τ) (ms1_1 t) fullShare (iblk1 V c 1 t) := by
  rw [← after1_1 V c t]
theorem leaves1_2 (c : Dev nD) (t : Fin cfg1.N) : (dat1 V c).leavesExact 2 t = owns (c : Thread nD τ) (ms1_2 t) fullShare (iblk1 V c 2 t) := by
  rw [← after1_2 V c t]

set_option maxHeartbeats 4800000 in
/-- An even point: the scratch buffers come in at anything and go back at the stored pieces; nothing is stored into the output block. -/
theorem sound_body1_A (c : Dev nD) (t : Fin cfg1.N) (h0 : t.val % 2 = 0) :
    bodyPre1 V c t ⊢ wp frame (wpE (defs₀ (F := F)) Variants.none c none) Set.univ (bodyAt1 t) (fun _ => bodyPost1 V c t) := by
  unfold bodyPre1 bodyPost1 bodyAt1
  obtain ⟨b0, b1, b2⟩ := before1 V c t
  simp only [b0, b1, b2]
  rw [show (dat1 V c).owesAt () t.succ = (dat1 V c).owesAt () t.castSucc from rfl,
    show (dat1 V c).Φ t.succ = PhiS1 V c (t.val + 1) t.isLt from rfl, PhiS1_succ, leaves1_0, leaves1_1, leaves1_2,
    Dat.leavesExact_idle (dat1 V c) 3 t (idleAt1_3_A t ((hcond1_0 t).mpr h0) (caseA_c1 t h0) (caseA_c2 t h0)) (noFlush1_3_A t ((hcond1_0 t).mpr h0) (caseA_c1 t h0) (caseA_c2 t h0)), PhiS1_castSucc V c t]
  refine (sep_mono_l (PhiS1_any V c _ _)).trans ?_
  change (iprop(_ ∗ _) : sProp 𝕄) ⊢ _
  rw [PhiA1_split, outsAt1_A V c t h0]
  unfold stA; (try dsimp only)
  iintro ⟨⟨⟨HS0, HS1, HS2, HS3, HS4, HS5⟩, HR, Hg⟩, Ho, ⟨%d0, H0⟩, ⟨%d1, H1⟩, ⟨%d2, H2⟩, ⟨%d3, H3⟩⟩
  iapply ((runA V c t h0).2.2.2.2.2.2.2 _ Set.univ _)
  iframe
  iintro ⟨H0, H1, H2, H3, ⟨%es0, HS0⟩, ⟨%es1, HS1⟩, ⟨%es2, HS2⟩, ⟨%es3, HS3⟩, ⟨%es4, HS4⟩, ⟨%es5, HS5⟩⟩
  iframe
  isplitr [H3]
  · isplitl [HS0]; · iapply owns_writes c scM1_0 _ _ _ (coverA V c t h0).1; iexact HS0
    isplitl [HS1]; · iapply owns_writes c scM1_1 _ _ _ (coverA V c t h0).2.1; iexact HS1
    isplitl [HS2]; · iapply owns_writes c scM1_2 _ _ _ (coverA V c t h0).2.2.1; iexact HS2
    isplitl [HS3]; · iapply owns_writes c scM1_3 _ _ _ (coverA V c t h0).2.2.2.1; iexact HS3
    isplitl [HS4]; · iapply owns_writes c scM1_4 _ _ _ (coverA V c t h0).2.2.2.2.1; iexact HS4
    iapply owns_writes c scM1_5 _ _ _ (coverA V c t h0).2.2.2.2.2; iexact HS5
  iexists _; iexact H3

set_option maxHeartbeats 4800000 in
/-- A point ≡ 3 (mod 4): the scratch buffers come in at what the point before left; each, and the output block, is stored whole. -/
theorem sound_body1_C (c : Dev nD) (t : Fin cfg1.N) (h0 : ¬t.val % 2 = 0) (h1 : t.val % 4 = 3) :
    bodyPre1 V c t ⊢ wp frame (wpE (defs₀ (F := F)) Variants.none c none) Set.univ (bodyAt1 t) (fun _ => bodyPost1 V c t) := by
  unfold bodyPre1 bodyPost1 bodyAt1
  obtain ⟨b0, b1, b2⟩ := before1 V c t
  simp only [b0, b1, b2]
  rw [show (dat1 V c).owesAt () t.succ = (dat1 V c).owesAt () t.castSucc from rfl,
    show (dat1 V c).Φ t.succ = PhiS1 V c (t.val + 1) t.isLt from rfl, PhiS1_succ, leaves1_0, leaves1_1, leaves1_2,
    show (dat1 V c).leavesExact 3 t = owns (c : Thread nD τ) (ms1_3 t) fullShare ((dat1 V c).after 3 t) from by
      unfold Dat.leavesExact; rw [liveAt1_3_C t (caseBC_c0 t h0) (caseC_c1 t h1) (caseBC_c2 t h0)], after1_3, PhiS1_castSucc V c t]
  rw [PhiS1_pos V c _ _ (by omega : t.val ≠ 0), outsAt1_C V c t h0 h1]
  unfold stC; (try dsimp only)
  iintro ⟨⟨⟨HS0, HS1, HS2, HS3, HS4, HS5⟩, HR, Hg⟩, Ho, ⟨%d0, H0⟩, ⟨%d1, H1⟩, ⟨%d2, H2⟩, ⟨%d3, H3⟩⟩
  iapply ((runC V c t h0 h1 _).2.2.2.2.2.2.2 Set.univ _)
  iframe
  isplitl [H3]; · iexists _; iexact H3
  iintro ⟨H0, H1, H2, ⟨%e3, H3⟩, ⟨%es0, HS0⟩, ⟨%es1, HS1⟩, ⟨%es2, HS2⟩, ⟨%es3, HS3⟩, ⟨%es4, HS4⟩, ⟨%es5, HS5⟩⟩
  iframe
  isplitr [H3]
  · isplitl [HS0]; · iapply owns_writes c scM1_0 _ _ _ ((coverC V c t h0 h1 _).2).1; iexact HS0
    isplitl [HS1]; · iapply owns_writes c scM1_1 _ _ _ ((coverC V c t h0 h1 _).2).2.1; iexact HS1
    isplitl [HS2]; · iapply owns_writes c scM1_2 _ _ _ ((coverC V c t h0 h1 _).2).2.2.1; iexact HS2
    isplitl [HS3]; · iapply owns_writes c scM1_3 _ _ _ ((coverC V c t h0 h1 _).2).2.2.2.1; iexact HS3
    isplitl [HS4]; · iapply owns_writes c scM1_4 _ _ _ ((coverC V c t h0 h1 _).2).2.2.2.2.1; iexact HS4
    iapply owns_writes c scM1_5 _ _ _ ((coverC V c t h0 h1 _).2).2.2.2.2.2; iexact HS5
  iapply owns_writes c (ms1_3 t) _ _ _ (coverC V c t h0 h1 _).1; iexact H3

set_option maxHeartbeats 4800000 in
/-- A point ≡ 1 (mod 4): the scratch buffers are only read and go back as they came; the output block is stored whole. -/
theorem sound_body1_B (c : Dev nD) (t : Fin cfg1.N) (h0 : ¬t.val % 2 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  obtain ⟨b0, b1, b2⟩ := before1 V c t
  simp only [b0, b1, b2]
  rw [show (dat1 V c).owesAt () t.succ = (dat1 V c).owesAt () t.castSucc from rfl,
    show (dat1 V c).Φ t.succ = PhiS1 V c (t.val + 1) t.isLt from rfl, PhiS1_succ, leaves1_0, leaves1_1, leaves1_2,
    show (dat1 V c).leavesExact 3 t = owns (c : Thread nD τ) (ms1_3 t) fullShare ((dat1 V c).after 3 t) from by
      unfold Dat.leavesExact; rw [liveAt1_3_B t (caseBC_c0 t h0) (caseB_c1 t h0 h1) (caseBC_c2 t h0)], after1_3, PhiS1_castSucc V c t]
  rw [PhiS1_pos V c _ _ (by omega : t.val ≠ 0), outsAt1_B V c t h0 h1]
  unfold stB; (try dsimp only)
  iintro ⟨⟨⟨HS0, HS1, HS2, HS3, HS4, HS5⟩, HR, Hg⟩, Ho, ⟨%d0, H0⟩, ⟨%d1, H1⟩, ⟨%d2, H2⟩, ⟨%d3, H3⟩⟩
  iapply ((runB V c t h0 h1 _).2.2.2.2.2.2.2 Set.univ _)
  iframe
  isplitl [H3]; · iexists _; iexact H3
  iintro ⟨H0, H1, H2, ⟨%e3, H3⟩, HS0, HS1, HS2, HS3, HS4, HS5⟩
  iframe
  iapply owns_writes c (ms1_3 t) _ _ _ (coverB V c t h0 h1 _); iexact H3

/-- Any point: the closed forms say which case it is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 2 = 0
  · exact sound_body1_A V c t h0
  · by_cases h1 : t.val % 4 = 3
    · exact sound_body1_C V c t h0 h1
    · exact sound_body1_B V c t h0 h1

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c :=
  PhiS1_any V c (Fin.last cfg1.N).val (Nat.le_of_lt_succ (Fin.last cfg1.N).isLt)

end Region1

end Cert.KernelIdeal.Hand

end
-- ==== Proof.R2.lean ====
import proofs.«410688_j9775345566104_3_alg».proof.Proof.Gen.KernelIdeal.Launch
import proofs.«410688_j9775345566104_3_alg».proof.Proof.Gen.KernelIdeal.Skeleton
import proofs.«410688_j9775345566104_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region2
variable (V : (c : Dev nD) → (b : Ref sig .tc) → Buf (Elt F) ((c : Thread nD τ).loc b))

/-- Window `w`'s block at point `t` of the arrays the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024x1024 := Rect.unit (s := S1024x1024) ![0, 0] S1024x1024.size inb_S1024x1024_S1024x1024_0_0
abbrev r2_1 : Rect S1x1024 := Rect.unit (s := S1x1024) ![0, 0] S1x1024.size inb_S1x1024_S1x1024_0_0

/-- The output block after the body: its one store, of the payload of the three loaded blocks. -/
def out2_3 (x0 : Vec F S1024x1024 .bf16) (x1 : Vec F S1024x1024 .bf16) (x2 : Vec F S1x1024 .f32) : Vec F S1024x1024 .f32 :=
  View.canon [⟨r2_0, k2_pay1 (View.ld x0 r2_0) (View.ld x1 r2_0) (View.ld x2 r2_1)⟩]

set_option maxHeartbeats 1000000 in
/-- The body's triple: the inputs' memrefs are left as read, the output's at `out2_3` of them, since the one store covers the block. -/
theorem sound_kernel2 (c : Dev nD) (E : Set ℕ) (i : grid2.Coords) (arg0 : Memref sig .tc .vmem S1024x1024 .bf16) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S1024x1024 .f32) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__linear_kernel i arg0 harg0 arg1 harg1 arg2 harg2 arg3 harg3) K := by
  simp only [cc2__linear_kernel_eq_skeleton]; unfold cc2__linear_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1024x1024.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- What the body leaves, window by window. -/
theorem after2 (c : Dev nD) (t : Fin cfg2.N) : (dat2 V c).after 0 t = iblk2 V c 0 t ∧ (dat2 V c).after 1 t = iblk2 V c 1 t
    ∧ (dat2 V c).after 2 t = iblk2 V c 2 t ∧ (dat2 V c).after 3 t = out2_3 (iblk2 V c 0 t) (iblk2 V c 1 t) (iblk2 V c 2 t) := by
  dsimp only [dat2]; exact ⟨rfl, rfl, rfl, rfl⟩

/-- What the body is handed for each input window is that window's block of the entry arrays. -/
theorem before2 (c : Dev nD) (t : Fin cfg2.N) : (∀ d, (dat2 V c).before 0 t d = iblk2 V c 0 t)
    ∧ (∀ d, (dat2 V c).before 1 t d = iblk2 V c 1 t) ∧ ∀ d, (dat2 V c).before 2 t d = iblk2 V c 2 t := by
  refine ⟨?_, ?_, ?_⟩ <;>
    exact fun d => ((dat2 V c).before_in_eq_fetched _ rfl (fun _ => rfl) (fun _ _ _ => rfl) (fun _ => rfl) t d).trans rfl

/-- The body's triple at a point of the grid, the invariant framed. -/
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d)))
    ⊢ wp frame (wpE (defs₀ (F := F)) Variants.none c none) Set.univ (bodyAt2 t) fun _ =>
      iprop((dat2 V c).Φ t.succ ∗ (dat2 V c).owesAt () t.succ
        ∗ owns (c : Thread nD τ) (st2_0 t) fullShare ((dat2 V c).after 0 t) ∗ owns (c : Thread nD τ) (st2_1 t) fullShare ((dat2 V c).after 1 t)
        ∗ owns (c : Thread nD τ) (st2_2 t) fullShare ((dat2 V c).after 2 t) ∗ owns (c : Thread nD τ) (st2_3 t) fullShare ((dat2 V c).after 3 t)) := by
  obtain ⟨b0, b1, b2⟩ := before2 V c t
  obtain ⟨a0, a1, a2, a3⟩ := after2 V c t
  simp only [b0, b1, b2]
  rw [show (dat2 V c).Φ t.succ = (dat2 V c).Φ t.castSucc from rfl,
    show (dat2 V c).owesAt () t.succ = (dat2 V c).owesAt () t.castSucc from rfl, a0, a1, a2, a3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.Run.lean ====
import proofs.«410688_j9775345566104_3_alg».proof.Proof.Gen.KernelIdeal.Launch
import proofs.«410688_j9775345566104_3_alg».proof.Proof.Gen.KernelIdeal.Skeleton
import proofs.«410688_j9775345566104_3_alg».proof.Proof.Gen.KernelIdeal.Points
import proofs.«410688_j9775345566104_3_alg».proof.Proof.Gen.KernelIdeal.Regions
import proofs.«410688_j9775345566104_3_alg».proof.Proof.R1Share
import proofs.«410688_j9775345566104_3_alg».proof.Proof.R0
import proofs.«410688_j9775345566104_3_alg».proof.Proof.R1
import proofs.«410688_j9775345566104_3_alg».proof.Proof.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section R1Arrays
variable {c : Dev nD} (dat : Dat τ (Elt F) Unit ℕ (UR sig nD τ) ℕ cfg1 c) (hq : dat.q = q1)

/-- The four windows of custom_call 1 stand on two distinct buffers. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v10) ↦{fullShare} V main_v10) ∗ (((c : Thread nD τ).loc main_v11) ↦{fullShare} V main_v11)) := by
  unfold Pipeline.arrBufs
  exact bigSep_eq_bigSepL_of_eq [main_v10, main_v11] (by decide) (by decide) _

include hq in
theorem share1 : ∀ w, dat.share w = q1 w
  | 0 | 1 | 2 | 3 => by unfold Dat.share; rw [hq]; rfl

include hq in
/-- The two buffers whole are the four windows' arrays: the one array's full share splits along q1 and joins back. -/
theorem arrays1_iff (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊣⊢ dat.arrays G := by
  unfold Dat.arrays
  rw [arrBufs1_eq, bigSep_W1, (arr_whole1 0).set_eq_univ, (arr_whole1 3).set_eq_univ, share1 dat hq 0, share1 dat hq 1,
    share1 dat hq 2, share1 dat hq 3, show G 0 = V main_v10 from hG 0, show G 1 = V main_v10 from hG 1,
    show G 2 = V main_v10 from hG 2, show G 3 = V main_v11 from hG 3]
  exact (sep_congr ((pointsTo_share q1_split_full).trans (sep_congr .rfl (pointsTo_share q1_split_right))) .rfl).trans
    (sep_assoc.trans (sep_congr .rfl sep_assoc))

end R1Arrays

theorem held_split1 (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec1 c (fun b => W b)
          ∗ Pipeline.unscopedRest (Ix := Unit) (Name := ℕ) (U := UR sig nD τ) (Lvl := ℕ) spec1 c (fun b => W b)) :=
  (Pipeline.unscopedBufs_held c W).symm.trans
    (Pipeline.unscopedBufs_split₀ (Pipeline.pin (pcfgs (F := F)) adm) 1 winFacts₀1.arr_unscoped c _)

/-- Core c holds every unscoped buffer at the valuation W c. -/
abbrev heldAt (W : Dev nD → Valuation τ sig (Elt F)) (c : Dev nD) : sProp 𝕄 :=
  StableHlo.held (c : Thread nD τ) (Pipeline.ucRefs τ sig) (W c)

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- Region 0's exit contents: its windows' arrays at the proof data's final contents, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- Region 1's exit contents: only its output window's array changes; the array its three input windows share stays. -/
def W4 (c : Dev nD) : Valuation τ sig (Elt F) :=
  Function.update (W3 m ρ c) (Proc.devRef .tc main_v11) ((dat1 (V3 m ρ) c).arrAt 3 cfg1.N)
theorem W4_of_ne (c : Dev nD) (b : Ref sig .tc) (hb : ∀ w, Pipeline.arrRef spec1 w ≠ b) :
    W4 m ρ c (Proc.devRef .tc b) = W3 m ρ c (Proc.devRef .tc b) := by
  unfold W4
  exact Function.update_of_ne (StableHlo.devRef_ne_of_ne (Ne.symm (hb 3)) : (Proc.devRef .tc b : DevRef τ sig) ≠ Proc.devRef .tc main_v11) _ _
theorem W4_main_v11 (c : Dev nD) : W4 m ρ c (Proc.devRef .tc main_v11) = (dat1 (V3 m ρ) c).arrAt 3 cfg1.N := by
  unfold W4; exact Function.update_self _ _ _
abbrev V4 : (c : Dev nD) → (b : Ref sig .tc) → Buf (Elt F) ((c : Thread nD τ).loc b) := fun c b => W4 m ρ c b
theorem W4_main_v10 (c : Dev nD) : W4 m ρ c (Proc.devRef .tc main_v10) = W3 m ρ c (Proc.devRef .tc main_v10) := by
  unfold W4
  exact Function.update_of_ne (StableHlo.devRef_ne_of_ne (by decide) : (Proc.devRef .tc main_v10 : DevRef τ sig) ≠ Proc.devRef .tc main_v11) _ _
theorem hF1 (c : Dev nD) : ∀ w, (dat1 (V3 m ρ) c).arrAt w cfg1.N = V4 m ρ c (Pipeline.arrRef spec1 w)
  | 3 => (W4_main_v11 m ρ c).symm
  | 0 | 1 | 2 => (((dat1 (V3 m ρ) c).arrAt_in _ rfl _).trans (A_eq1 (V3 m ρ) c _)).trans (W4_main_v10 m ρ c).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev W7 : Dev nD → Valuation τ sig (Elt F) := fun c => StableHlo.after hostOps3 (W6 m ρ c)

/-- A buffer no host operation writes and no region windows holds at the end what it held at launch. -/
theorem W7_of_untouched (c : Dev nD) (b : Ref sig .tc) (h : b ∉ hostOps0_W ∧ (∀ w, Pipeline.arrRef spec0 w ≠ b)
    ∧ b ∉ hostOps1_W ∧ (∀ w, Pipeline.arrRef spec1 w ≠ b) ∧ b ∉ hostOps2_W ∧ (∀ w, Pipeline.arrRef spec2 w ≠ b)
    ∧ b ∉ hostOps3_W) : W7 m ρ c (Proc.devRef .tc b) = m ((c : Thread nD τ).loc b) :=
  (StableHlo.after_of_writes_sub hostOps3 _ hostOps3_writes h.2.2.2.2.2.2).trans <|
    (W6_of_ne m ρ c b h.2.2.2.2.2.1).trans <| (StableHlo.after_of_writes_sub hostOps2 _ hostOps2_writes h.2.2.2.2.1).trans <|
    (W4_of_ne m ρ c b h.2.2.2.1).trans <| (StableHlo.after_of_writes_sub hostOps1 _ hostOps1_writes h.2.2.1).trans <|
    (W2_of_ne m ρ c b h.2.1).trans <| StableHlo.after_of_writes_sub hostOps0 _ hostOps0_writes h.1

theorem W7_main_arg0 (c : Dev nD) : W7 m ρ c (Proc.devRef .tc main_arg0) = m ((c : Thread nD τ).loc main_arg0) :=
  W7_of_untouched m ρ c _ (by decide)
theorem W7_main_arg1 (c : Dev nD) : W7 m ρ c (Proc.devRef .tc main_arg1) = m ((c : Thread nD τ).loc main_arg1) :=
  W7_of_untouched m ρ c _ (by decide)
theorem W7_main_arg2 (c : Dev nD) : W7 m ρ c (Proc.devRef .tc main_arg2) = m ((c : Thread nD τ).loc main_arg2) :=
  W7_of_untouched m ρ c _ (by decide)
theorem W7_main_arg3 (c : Dev nD) : W7 m ρ c (Proc.devRef .tc main_arg3) = m ((c : Thread nD τ).loc main_arg3) :=
  W7_of_untouched m ρ c _ (by decide)
theorem W7_main_arg4 (c : Dev nD) : W7 m ρ c (Proc.devRef .tc main_arg4) = m ((c : Thread nD τ).loc main_arg4) :=
  W7_of_untouched m ρ c _ (by decide)
theorem W7_main_arg5 (c : Dev nD) : W7 m ρ c (Proc.devRef .tc main_arg5) = m ((c : Thread nD τ).loc main_arg5) :=
  W7_of_untouched m ρ c _ (by decide)
theorem W7_main_arg6 (c : Dev nD) : W7 m ρ c (Proc.devRef .tc main_arg6) = m ((c : Thread nD τ).loc main_arg6) :=
  W7_of_untouched m ρ c _ (by decide)
theorem W7_main_arg7 (c : Dev nD) : W7 m ρ c (Proc.devRef .tc main_arg7) = m ((c : Thread nD τ).loc main_arg7) :=
  W7_of_untouched m ρ c _ (by decide)
theorem W7_main_arg8 (c : Dev nD) : W7 m ρ c (Proc.devRef .tc main_arg8) = m ((c : Thread nD τ).loc main_arg8) :=
  W7_of_untouched m ρ c _ (by decide)

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What is carried beside the buffers through every segment. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(heldAt (W7 m ρ) c ∗ ∃ r, prngReg c r)

theorem unscopedRest1_exit (c : Dev nD) :
    (Pipeline.unscopedRest (Ix := Unit) (Name := ℕ) (U := UR sig nD τ) (Lvl := ℕ) spec1 c (V4 m ρ c) : sProp 𝕄)
      = Pipeline.unscopedRest (Ix := Unit) (Name := ℕ) (U := UR sig nD τ) (Lvl := ℕ) spec1 c (V3 m ρ c) := by
  unfold Pipeline.unscopedRest
  exact bigSep_congr fun b hb => by rw [hrest1 m ρ c b (Finset.mem_sdiff.mp hb).2]

/-- A region as a segment of the run: its arrays are split out of the held buffers at entry and put back at exit. -/
def mkReg (p : Fin 3) (win : Pipeline.WinFacts₀ (pcfgs (F := F) p).spec)
    (block_pos : ∀ w : Fin (cfgs p).W, 0 < ((cfgs p).spec w).block.numel)
    (stage_whole : ∀ (w : Fin (cfgs p).W) (s : Fin ((cfgs p).spec w).nbuf), (((cfgs p).spec w).stage s).IsWhole)
    (Wi Wo : Dev nD → Valuation τ sig (Elt F)) (Z : Dev nD → sProp 𝕄)
    (hbody : ∀ c, BodyObligation (pdats m ρ p c) (defs₀ (F := F)) Variants.none () Set.univ)
    (howed : ∀ c t, (pdats m ρ p c).owed t = 0)
    (hbound : ∀ c (W : Finset (SemLoc sig × Unit)), (↑W : Set (SemLoc sig × Unit)) ⊆ (pdats m ρ p c).bound () 0)
    (hsplit : ∀ c : Dev nD, heldAt Wi c
      ⊢ iprop((pdats m ρ p c).arrays ((pdats m ρ p c).arrAt · 0) ∗ Z c))
    (hjoin : ∀ c : Dev nD, iprop((pdats m ρ p c).arrays ((pdats m ρ p c).arrAt · (cfgs p).N) ∗ Z c)
      ⊢ heldAt Wo c)
    (hin : ∀ c : Dev nD, (Pipeline.ΦA (cfgs p).spec c : sProp 𝕄) ⊢ (pdats m ρ p c).Φ 0)
    (hout : ∀ c : Dev nD, (pdats m ρ p c).Φ (Fin.last (cfgs p).N) ⊢ (Pipeline.ΦA (cfgs p).spec c : sProp 𝕄)) :
    Pipeline.RegionSeg (pcfgs (F := F)) adm (pdats m ρ) () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p howed
  pre c := iprop(heldAt Wi c ∗ R c)
  post c := iprop(heldAt Wo c ∗ R c)
  X c := iprop(∃ r, prngReg c r)
  Y c := iprop(∃ r, prngReg c r)
  Z := Z
  hentry c := by
    rw [Pipeline.ownSems0_none]
    iintro ⟨⟨Hub, Hp, HO⟩, -, -⟩
    ihave H := hsplit c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact hbound c W
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply hjoin c; isplitl [Ha] <;> iassumption
    isplitl [HY]; · iexact HY
    unfold Pipeline.Dat.owesAt Pipeline.owesWithin; rw [howed c]
    icases HO with ⟨%W, -, HO⟩; iexists W; iexact HO

/-- A region whose windows stand on distinct whole buffers at the full share, with one invariant at every point. -/
def regFull (p : Fin 3) (lf : Pipeline.LaunchFacts (nD := nD) (τ := τ) cfgs p) (Wi Wo : Dev nD → Valuation τ sig (Elt F))
    (hbody : ∀ c, BodyObligation (pdats m ρ p c) (defs₀ (F := F)) Variants.none () Set.univ)
    (howed : ∀ c t, (pdats m ρ p c).owed t = 0)
    (hbound : ∀ c (W : Finset (SemLoc sig × Unit)), (↑W : Set (SemLoc sig × Unit)) ⊆ (pdats m ρ p c).bound () 0)
    (hq : ∀ c w, (pdats m ρ p c).q w = fullShare)
    (hA : ∀ c w, (pdats m ρ p c).A w = Wi c (Proc.devRef .tc (Pipeline.arrRef (cfgs p).spec w)))
    (hΦ : ∀ c t, (pdats m ρ p c).Φ t = Pipeline.ΦA (cfgs p).spec c)
    (harr : ∀ c w, Wo c (Proc.devRef .tc (Pipeline.arrRef (cfgs p).spec w)) = (pdats m ρ p c).arrAt w (cfgs p).N)
    (hne : ∀ c (b : Ref sig .tc), (∀ w, Pipeline.arrRef (cfgs p).spec w ≠ b) → Wo c (Proc.devRef .tc b) = Wi c (Proc.devRef .tc b)) :
    Pipeline.RegionSeg (pcfgs (F := F)) adm (pdats m ρ) () defs₀ 𝒱₀ L lv p :=
  mkReg m ρ p lf.win.to₀ lf.block_pos lf.stage_whole Wi Wo _ hbody howed hbound
    (fun c => (Entails.of_eq (Pipeline.unscopedBufs_held c (Wi c)).symm).trans
      (Pipeline.arrays_of_unscopedBufs (pcfgs (F := F)) adm (pdats m ρ) lf.win lf.arr_whole c
        ((pdats m ρ p c).share_full (hq c)) (fun b => Wi c b) (hA c)))
    (fun c => (Pipeline.unscopedBufs_of_arrays (pcfgs (F := F)) adm lf.win lf.arr_whole c (pdats m ρ)
        ((pdats m ρ p c).share_full (hq c)) (fun b => Wi c b) (fun b => Wo c b) _ (fun w => (harr c w).symm)
        (fun b hb => hne c b fun w e => hb (Finset.mem_image.mpr ⟨w, Finset.mem_univ _, e⟩))).trans
      (Entails.of_eq (Pipeline.unscopedBufs_held c (Wo c))))
    (fun c => Entails.of_eq (hΦ c 0).symm) fun c => Entails.of_eq (hΦ c _)

def reg0 : Pipeline.RegionSeg (pcfgs (F := F)) adm (pdats m ρ) () defs₀ 𝒱₀ L lv 0 :=
  regFull m ρ 0 launch0 (W1 m ρ) (W2 m ρ) (body_obligation0 _) (fun _ _ => rfl) (fun _ _ _ _ => Or.inl trivial)
    (fun _ _ => rfl) (fun _ _ => rfl) (fun _ _ => rfl) (W2_arr m ρ) (W2_of_ne m ρ)

def reg1 : Pipeline.RegionSeg (pcfgs (F := F)) adm (pdats m ρ) () defs₀ 𝒱₀ L lv 1 :=
  mkReg m ρ 1 winFacts₀1 block_pos1 stage_whole1 (W3 m ρ) (W4 m ρ) _ (body_obligation1 _) (fun _ _ => rfl)
    (fun _ _ _ _ => Or.inl trivial)
    (fun c => (Entails.of_eq (held_split1 c _)).trans
      (BIClass.sep_mono (arrays1_iff (dat1 (V3 m ρ) c) rfl (V3 m ρ c) _ (A_eq1 (V3 m ρ) c)).1 .rfl))
    (fun c => (BIClass.sep_mono (arrays1_iff (dat1 (V3 m ρ) c) rfl (V4 m ρ c) _ (hF1 m ρ c)).2
      (Entails.of_eq (unscopedRest1_exit m ρ c).symm)).trans (Entails.of_eq (held_split1 c _).symm))
    (hin1 _) (hout1 _)

def reg2 : Pipeline.RegionSeg (pcfgs (F := F)) adm (pdats m ρ) () defs₀ 𝒱₀ L lv 2 :=
  regFull m ρ 2 launch2 (W5 m ρ) (W6 m ρ) (body_obligation2 _) (fun _ _ => rfl) (fun _ _ _ _ => Or.inl trivial)
    (fun _ _ => rfl) (fun _ _ => rfl) (fun _ _ => rfl) (W6_arr m ρ) (W6_of_ne m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- Every fair run of @main ends, nothing faulting, with each unscoped buffer at the last boundary's contents. -/
theorem run_main {Q : PUnit × MemSt nD τ sig (Elt F) → Prop}
    (hQ : ∀ s : MemSt nD τ sig (Elt F), (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(heldAt (W0 m ρ) c ∗ R c)) (Tₙ := Tₙ m ρ)
    (hch := ⟨fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold heldAt StableHlo.held
      imodintro
      iapply (pointsTo_read_all (Pipeline.ucRefs τ sig) (fun b => (((c : Thread nD τ)).1, b)) (W7 m ρ c) s')
      isplitl [Hh] <;> iassumption)
    (hQ := hQ)

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_main m ρ fun s h c =>
    ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c)⟩

/-- The result is the last reshape of what region 2 leaves in its output window's array. -/
theorem W7_out (c : Dev nD) :
    W7 m ρ c (Proc.devRef .tc main_v18)
      = fun i => shapeCast S2048x2x1024 (W6 m ρ c (Proc.devRef .tc main_v17)) shapeCasts_S4096x1024_S2048x2x1024 i := by
  show StableHlo.after hostOps3 (W6 m ρ c) (Proc.devRef .tc main_v18) = _
  after_results; rfl

end Cert.KernelIdeal.Hand

end
-- ==== Proof.WR1Share.lean ====
import proofs.«410688_j9775345566104_3_alg».proof.Proof.Gen.Kernel
import Idealize.SL.RA.TreeShare

namespace Cert.Kernel.Hand

open Cert.Kernel Cert.Kernel.Gen
open Idealize.ShloMosaic Idealize.SL.RA Idealize.SL.RA.PCS

def q1 : Fin cfg1.W → PosShare TreeShare
  | 0 => fullShare.left
  | 1 => fullShare.right.left
  | 2 => fullShare.right.right
  | 3 => fullShare

theorem q1_0 : q1 0 = fullShare.left := rfl
theorem q1_1 : q1 1 = fullShare.right.left := rfl
theorem q1_2 : q1 2 = fullShare.right.right := rfl

theorem q1_split_full : fullShare ∈ q1 0 ·? fullShare.right := PosShare.mem_left_op_right fullShare

theorem q1_split_right : fullShare.right ∈ q1 1 ·? q1 2 := PosShare.mem_left_op_right fullShare.right

end Cert.Kernel.Hand
-- ==== Proof.WR0.lean ====
import proofs.«410688_j9775345566104_3_alg».proof.Proof.Gen.Kernel.Launch
import proofs.«410688_j9775345566104_3_alg».proof.Proof.Gen.Kernel.Skeleton
import proofs.«410688_j9775345566104_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t` of the arrays the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-- The output block after the body: its one store, of the payload of the three loaded blocks. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

set_option maxHeartbeats 1000000 in
/-- The body's triple: the inputs' memrefs are left as read, the output's at `out0_3` of them, since the one store covers the block. -/
theorem sound_kernel0 (c : Dev nD) (E : Set ℕ) (i : grid0.Coords) (arg0 : Memref sig .tc .vmem S512x1024 .f32) (harg0 : arg0.IsWhole) (arg1 : Memref sig .tc .vmem S1024x3072 .bf16) (harg1 : arg1.IsWhole) (arg2 : Memref sig .tc .vmem S1x3072 .f32) (harg2 : arg2.IsWhole) (arg3 : Memref sig .tc .vmem S512x3072 .bf16) (harg3 : arg3.IsWhole)
    (x0 : Vec F S512x1024 .f32) (x1 : Vec F S1024x3072 .bf16) (x2 : Vec F S1x3072 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S512x3072.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- What the body leaves, window by window. -/
theorem after0 (c : Dev nD) (t : Fin cfg0.N) : (dat0 V c).after 0 t = iblk0 V c 0 t ∧ (dat0 V c).after 1 t = iblk0 V c 1 t
    ∧ (dat0 V c).after 2 t = iblk0 V c 2 t ∧ (dat0 V c).after 3 t = out0_3 (iblk0 V c 0 t) (iblk0 V c 1 t) (iblk0 V c 2 t) := by
  dsimp only [dat0]; exact ⟨rfl, rfl, rfl, rfl⟩

/-- What the body is handed for each input window is that window's block of the entry arrays. -/
theorem before0 (c : Dev nD) (t : Fin cfg0.N) : (∀ d, (dat0 V c).before 0 t d = iblk0 V c 0 t)
    ∧ (∀ d, (dat0 V c).before 1 t d = iblk0 V c 1 t) ∧ ∀ d, (dat0 V c).before 2 t d = iblk0 V c 2 t := by
  refine ⟨?_, ?_, ?_⟩ <;>
    exact fun d => ((dat0 V c).before_in_eq_fetched _ rfl (fun _ => rfl) (fun _ _ _ => rfl) (fun _ => rfl) t d).trans rfl

/-- The body's triple at a point of the grid, the invariant framed. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) fun _ =>
      iprop((dat0 V c).Φ t.succ ∗ (dat0 V c).owesAt () t.succ
        ∗ owns (c : Thread nD τ) (st0_0 t) fullShare ((dat0 V c).after 0 t) ∗ owns (c : Thread nD τ) (st0_1 t) fullShare ((dat0 V c).after 1 t)
        ∗ owns (c : Thread nD τ) (st0_2 t) fullShare ((dat0 V c).after 2 t) ∗ owns (c : Thread nD τ) (st0_3 t) fullShare ((dat0 V c).after 3 t)) := by
  obtain ⟨b0, b1, b2⟩ := before0 V c t
  obtain ⟨a0, a1, a2, a3⟩ := after0 V c t
  simp only [b0, b1, b2]
  rw [show (dat0 V c).Φ t.succ = (dat0 V c).Φ t.castSucc from rfl,
    show (dat0 V c).owesAt () t.succ = (dat0 V c).owesAt () t.castSucc from rfl, a0, a1, a2, a3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.WR1Runs.lean ====
import proofs.«410688_j9775345566104_3_alg».proof.Proof.Gen.Kernel.Launch
import proofs.«410688_j9775345566104_3_alg».proof.Proof.Gen.Kernel.Skeleton
import proofs.«410688_j9775345566104_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 3).val) 0#32)) 0#32) = 1#1

theorem hcond1_0 : ∀ t : Fin cfg1.N, cond1_0 (grid1.coords t) ↔ t.val % 2 = 0 :=
  (by decide +kernel : ∀ t : Fin grid1.N, cond1_0 (grid1.coords t) ↔ t.val % 2 = 0)

abbrev cond1_1 (i : grid1.Coords) : Prop := (Scalar.cmpi .ne (Scalar.extui (Scalar.cmpi .sle (Scalar.muli (BitVec.ofNat 32 (i 3).val) 1024#32) (Scalar.addi (Scalar.muli (BitVec.ofNat 32 (i 2).val) 1024#32) 1023#32))) 0#32) = 1#1

theorem hcond1_1 : ∀ t : Fin cfg1.N, cond1_1 (grid1.coords t) ↔ t.val % 4 ≠ 1 :=
  (by decide +kernel : ∀ t : Fin grid1.N, cond1_1 (grid1.coords t) ↔ t.val % 4 ≠ 1)

abbrev cond1_2 (i : grid1.Coords) : Prop := k1_cond3 i = 1#1

theorem hcond1_2 : ∀ t : Fin cfg1.N, cond1_2 (grid1.coords t) ↔ t.val % 2 = 1 :=
  (by decide +kernel : ∀ t : Fin grid1.N, cond1_2 (grid1.coords t) ↔ t.val % 2 = 1)

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

theorem idleAt1_3_A : ∀ t : Fin cfg1.N, cond1_0 (grid1.coords t) → cond1_1 (grid1.coords t) → ¬cond1_2 (grid1.coords t) → cfg1.idle 3 (grid1.coords t) = true := by decide +kernel

theorem noFlush1_3_A : ∀ t : Fin cfg1.N, cond1_0 (grid1.coords t) → cond1_1 (grid1.coords t) → ¬cond1_2 (grid1.coords t) → (cfg1.win 3).flush t = false := by decide +kernel

theorem liveAt1_3_B : ∀ t : Fin cfg1.N, ¬cond1_0 (grid1.coords t) → ¬cond1_1 (grid1.coords t) → cond1_2 (grid1.coords t) → cfg1.idle 3 (grid1.coords t) = false := by decide +kernel

theorem liveAt1_3_C : ∀ t : Fin cfg1.N, ¬cond1_0 (grid1.coords t) → cond1_1 (grid1.coords t) → cond1_2 (grid1.coords t) → cfg1.idle 3 (grid1.coords t) = false := by decide +kernel

abbrev VO1_3 : View sig .tc .vmem S1x1024x128 .bf16 := (Memref.whole cc1_stg3_0 : Memref sig .tc .vmem S1x1024x128 .bf16).view

abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .bf16 := win1_3.stage (cfg1.slots t 3)
abbrev hs1_3 (t : Fin cfg1.N) : (ms1_3 t).IsWhole := hstage1_3 ((cfg1.slots t 3).cast nbuf1_3)

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev scM1_3 : Memref sig .tc .vmem S1024x1 .f32 := Memref.whole cc1_scratch3
abbrev scM1_4 : Memref sig .tc .vmem S1024x1 .f32 := Memref.whole cc1_scratch4
abbrev scM1_5 : Memref sig .tc .vmem S1024x64 .f32 := Memref.whole cc1_scratch5

abbrev VS1_0 : View sig .tc .vmem S1024x1 .f32 := scM1_0.view
abbrev VS1_1 : View sig .tc .vmem S1024x1 .f32 := scM1_1.view
abbrev VS1_2 : View sig .tc .vmem S1024x64 .f32 := scM1_2.view
abbrev VS1_3 : View sig .tc .vmem S1024x1 .f32 := scM1_3.view
abbrev VS1_4 : View sig .tc .vmem S1024x1 .f32 := scM1_4.view
abbrev VS1_5 : View sig .tc .vmem S1024x64 .f32 := scM1_5.view

end Cert.Kernel.Hand

end
-- ==== Proof.WR1RunA.lean ====
import proofs.«410688_j9775345566104_3_alg».proof.Proof.WR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_A (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x64 .f32) (harg13 : arg13.IsWhole) (hc0 : cond1_0 i) (hc1 : cond1_1 i) (hc2 : ¬cond1_2 i)
    (x0 : Vec F S1x1024x128 .bf16) (x1 : Vec F S1x1024x128 .bf16) (x2 : Vec F S1x1024x128 .bf16) :
    Σ' (L3 : List (View.Piece (Elt F) S1x1024x128 .bf16)), Σ' (LS0 : List (View.Piece (Elt F) S1024x1 .f32)), Σ' (LS1 : List (View.Piece (Elt F) S1024x1 .f32)), Σ' (LS2 : List (View.Piece (Elt F) S1024x64 .f32)), Σ' (LS3 : List (View.Piece (Elt F) S1024x1 .f32)), Σ' (LS4 : List (View.Piece (Elt F) S1024x1 .f32)), { LS5 : List (View.Piece (Elt F) S1024x64 .f32) //
      ∀ (xi3 : Vec F S1x1024x128 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg4 fullShare x0 ∗ owns (c : Thread nD τ) arg5 fullShare x1 ∗ owns (c : Thread nD τ) arg6 fullShare x2 ∗ owns (c : Thread nD τ) arg7 fullShare xi3 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ (∃ f, arg13.view.loc (c : Thread nD τ) ↦[arg13.view.set]{fullShare} arg13.view.writes (Elt F) f LS5)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨[], ?_, ?_, ?_, ?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg4.eq_unread hf0; obtain rfl := harg5.eq_unread hf1; obtain rfl := harg6.eq_unread hf2; obtain rfl := harg7.eq_unread hf3
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.WR1RunB.lean ====
import proofs.«410688_j9775345566104_3_alg».proof.Proof.WR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_B (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x64 .f32) (harg13 : arg13.IsWhole) (hc0 : ¬cond1_0 i) (hc1 : ¬cond1_1 i) (hc2 : cond1_2 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    Σ' (L3 : List (View.Piece (Elt F) S1x1024x128 .bf16)), Σ' (LS0 : List (View.Piece (Elt F) S1024x1 .f32)), Σ' (LS1 : List (View.Piece (Elt F) S1024x1 .f32)), Σ' (LS2 : List (View.Piece (Elt F) S1024x64 .f32)), Σ' (LS3 : List (View.Piece (Elt F) S1024x1 .f32)), Σ' (LS4 : List (View.Piece (Elt F) S1024x1 .f32)), { LS5 : List (View.Piece (Elt F) S1024x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, [], [], [], [], [], [], fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg4.eq_unread hf0; obtain rfl := harg5.eq_unread hf1; obtain rfl := harg6.eq_unread hf2
    obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HS3]
    · iexists _; isplitr; · ipureintro; exact harg11.read_unread _
      iexact HS3
    isplitl [HS4]
    · iexists _; isplitr; · ipureintro; exact harg12.read_unread _
      iexact HS4
    iexists _; isplitr; · ipureintro; exact harg13.read_unread _
    iexact HS5

end Cert.Kernel.Hand

end
-- ==== Proof.WR1RunC.lean ====
import proofs.«410688_j9775345566104_3_alg».proof.Proof.WR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_C (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x64 .f32) (harg13 : arg13.IsWhole) (hc0 : ¬cond1_0 i) (hc1 : cond1_1 i) (hc2 : cond1_2 i)
    (x0 : Vec F S1x1024x128 .bf16) (x1 : Vec F S1x1024x128 .bf16) (x2 : Vec F S1x1024x128 .bf16) (xs0 : Vec F S1024x1 .f32) (xs1 : Vec F S1024x1 .f32) (xs2 : Vec F S1024x64 .f32) (xs3 : Vec F S1024x1 .f32) (xs4 : Vec F S1024x1 .f32) (xs5 : Vec F S1024x64 .f32) :
    Σ' (L3 : List (View.Piece (Elt F) S1x1024x128 .bf16)), Σ' (LS0 : List (View.Piece (Elt F) S1024x1 .f32)), Σ' (LS1 : List (View.Piece (Elt F) S1024x1 .f32)), Σ' (LS2 : List (View.Piece (Elt F) S1024x64 .f32)), Σ' (LS3 : List (View.Piece (Elt F) S1024x1 .f32)), Σ' (LS4 : List (View.Piece (Elt F) S1024x1 .f32)), { LS5 : List (View.Piece (Elt F) S1024x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3 ∗ owns (c : Thread nD τ) arg12 fullShare xs4 ∗ owns (c : Thread nD τ) arg13 fullShare xs5
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3) ∗ (∃ f, arg12.view.loc (c : Thread nD τ) ↦[arg12.view.set]{fullShare} arg12.view.writes (Elt F) f LS4) ∗ (∃ f, arg13.view.loc (c : Thread nD τ) ↦[arg13.view.set]{fullShare} arg13.view.writes (Elt F) f LS5)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg4.eq_unread hf0; obtain rfl := harg5.eq_unread hf1; obtain rfl := harg6.eq_unread hf2
    obtain rfl := harg8.eq_unread hfs0; obtain rfl := harg9.eq_unread hfs1; obtain rfl := harg10.eq_unread hfs2; obtain rfl := harg11.eq_unread hfs3; obtain rfl := harg12.eq_unread hfs4; obtain rfl := harg13.eq_unread hfs5
    sl_exec (disch := first | exact hc0 | exact hc1 | exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.WR1.lean ====
import proofs.«410688_j9775345566104_3_alg».proof.Proof.WR1RunC
import proofs.«410688_j9775345566104_3_alg».proof.Proof.WR1Share

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

theorem PhiA1_split (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d)) ∗ Rest1 (F := F) c ∗ (∃ r, prngReg c r)) := by
  unfold Pipeline.ΦA Rest1; rw [scopedRest1_eq]; simp only [scM1_0, scM1_1, scM1_2, scM1_3, scM1_4, scM1_5, owns_whole]
  refine Idealize.SL.BI.Entails.antisymm ?_ ?_
  · change (_ : sProp 𝕄) ⊢ _
    iintro ⟨⟨A0, A1, A2, A3, A4, A5, S0, S1, S2, S3, S4, S5, B0, B1, B2, B3, B4, B5⟩, Hg⟩
    iframe
  · change (_ : sProp 𝕄) ⊢ _
    iintro ⟨⟨S0, S1, S2, S3, S4, S5⟩, ⟨A0, A1, A2, A3, A4, A5, B0, B1, B2, B3, B4, B5⟩, Hg⟩
    iframe

section Region1

variable (V : (c : Dev nD) → (b : Ref sig .tc) → Buf (Elt F) ((c : Thread nD τ).loc b))

theorem caseA_c1 (t : Fin cfg1.N) (h0 : t.val % 2 = 0) : cond1_1 (grid1.coords t) :=
  (hcond1_1 t).mpr (by omega)

theorem caseA_c2 (t : Fin cfg1.N) (h0 : t.val % 2 = 0) : ¬cond1_2 (grid1.coords t) :=
  fun h => by have := (hcond1_2 t).mp h; omega

theorem caseBC_c0 (t : Fin cfg1.N) (h0 : ¬t.val % 2 = 0) : ¬cond1_0 (grid1.coords t) :=
  fun h => h0 ((hcond1_0 t).mp h)

theorem caseBC_c2 (t : Fin cfg1.N) (h0 : ¬t.val % 2 = 0) : cond1_2 (grid1.coords t) :=
  (hcond1_2 t).mpr (by omega)

theorem caseB_c1 (t : Fin cfg1.N) (h0 : ¬t.val % 2 = 0) (h1 : ¬t.val % 4 = 3) : ¬cond1_1 (grid1.coords t) :=
  fun h => (hcond1_1 t).mp h (by omega)

theorem caseC_c1 (t : Fin cfg1.N) (h1 : t.val % 4 = 3) : cond1_1 (grid1.coords t) :=
  (hcond1_1 t).mpr (by omega)

abbrev Scr1 (F : FTy → Type) : Type :=
  Vec F S1024x1 .f32 × Vec F S1024x1 .f32 × Vec F S1024x64 .f32 × Vec F S1024x1 .f32 × Vec F S1024x1 .f32 × Vec F S1024x64 .f32

/-- The body's run at point `t` in each control case; the odd cases read the scratch contents `s` the point before left. -/
def runA (c : Dev nD) (t : Fin cfg1.N) (h0 : t.val % 2 = 0) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) ((hcond1_0 t).mpr h0) (caseA_c1 t h0) (caseA_c2 t h0) (iblk1 V c 0 t) (iblk1 V c 1 t) (iblk1 V c 2 t)
def runB (c : Dev nD) (t : Fin cfg1.N) (h0 : ¬t.val % 2 = 0) (h1 : ¬t.val % 4 = 3) (s : Scr1 F) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (caseBC_c0 t h0) (caseB_c1 t h0 h1) (caseBC_c2 t h0) (iblk1 V c 0 t) (iblk1 V c 1 t) (iblk1 V c 2 t) s.1 s.2.1 s.2.2.1 s.2.2.2.1 s.2.2.2.2.1 s.2.2.2.2.2
def runC (c : Dev nD) (t : Fin cfg1.N) (h0 : ¬t.val % 2 = 0) (h1 : t.val % 4 = 3) (s : Scr1 F) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (caseBC_c0 t h0) (caseC_c1 t h1) (caseBC_c2 t h0) (iblk1 V c 0 t) (iblk1 V c 1 t) (iblk1 V c 2 t) s.1 s.2.1 s.2.2.1 s.2.2.2.1 s.2.2.2.2.1 s.2.2.2.2.2

/-- Each buffer a case stores is tiled by the pieces stored, so they cover it. -/
theorem coverA (c : Dev nD) (t : Fin cfg1.N) (h0 : t.val % 2 = 0) :
    (∀ y, ∃ pc ∈ (runA V c t h0).2.1, y ∈ pc.1.set) ∧ (∀ y, ∃ pc ∈ (runA V c t h0).2.2.1, y ∈ pc.1.set) ∧ (∀ y, ∃ pc ∈ (runA V c t h0).2.2.2.1, y ∈ pc.1.set) ∧ (∀ y, ∃ pc ∈ (runA V c t h0).2.2.2.2.1, y ∈ pc.1.set) ∧ (∀ y, ∃ pc ∈ (runA V c t h0).2.2.2.2.2.1, y ∈ pc.1.set) ∧ (∀ y, ∃ pc ∈ (runA V c t h0).2.2.2.2.2.2.1, y ∈ pc.1.set) :=
  ⟨View.cover_of_tiledL _ S1024x1.size (by sl_kernel_rfl), View.cover_of_tiledL _ S1024x1.size (by sl_kernel_rfl), View.cover_of_tiledL _ S1024x64.size (by sl_kernel_rfl), View.cover_of_tiledL _ S1024x1.size (by sl_kernel_rfl), View.cover_of_tiledL _ S1024x1.size (by sl_kernel_rfl), View.cover_of_tiledL _ S1024x64.size (by sl_kernel_rfl)⟩
theorem coverB (c : Dev nD) (t : Fin cfg1.N) (h0 : ¬t.val % 2 = 0) (h1 : ¬t.val % 4 = 3) (s : Scr1 F) :
    (∀ y, ∃ pc ∈ (runB V c t h0 h1 s).1, y ∈ pc.1.set) :=
  View.cover_of_tiledL _ S1x1024x128.size (by sl_kernel_rfl)
theorem coverC (c : Dev nD) (t : Fin cfg1.N) (h0 : ¬t.val % 2 = 0) (h1 : t.val % 4 = 3) (s : Scr1 F) :
    (∀ y, ∃ pc ∈ (runC V c t h0 h1 s).1, y ∈ pc.1.set) ∧ (∀ y, ∃ pc ∈ (runC V c t h0 h1 s).2.1, y ∈ pc.1.set) ∧ (∀ y, ∃ pc ∈ (runC V c t h0 h1 s).2.2.1, y ∈ pc.1.set) ∧ (∀ y, ∃ pc ∈ (runC V c t h0 h1 s).2.2.2.1, y ∈ pc.1.set) ∧ (∀ y, ∃ pc ∈ (runC V c t h0 h1 s).2.2.2.2.1, y ∈ pc.1.set) ∧ (∀ y, ∃ pc ∈ (runC V c t h0 h1 s).2.2.2.2.2.1, y ∈ pc.1.set) ∧ (∀ y, ∃ pc ∈ (runC V c t h0 h1 s).2.2.2.2.2.2.1, y ∈ pc.1.set) :=
  ⟨View.cover_of_tiledL _ S1x1024x128.size (by sl_kernel_rfl), View.cover_of_tiledL _ S1024x1.size (by sl_kernel_rfl), View.cover_of_tiledL _ S1024x1.size (by sl_kernel_rfl), View.cover_of_tiledL _ S1024x64.size (by sl_kernel_rfl), View.cover_of_tiledL _ S1024x1.size (by sl_kernel_rfl), View.cover_of_tiledL _ S1024x1.size (by sl_kernel_rfl), View.cover_of_tiledL _ S1024x64.size (by sl_kernel_rfl)⟩

/-- What a case leaves at point `t`: the output block, then the six scratch buffers, as the stored pieces read back. -/
def stA (c : Dev nD) (t : Fin cfg1.N) (h0 : t.val % 2 = 0) : Vec F S1x1024x128 .bf16 × Scr1 F :=
  (VO1_3.read (Elt F) (VO1_3.writes (Elt F) VO1_3.junk (runA V c t h0).1), VS1_0.read (Elt F) (VS1_0.writes (Elt F) VS1_0.junk (runA V c t h0).2.1),
   VS1_1.read (Elt F) (VS1_1.writes (Elt F) VS1_1.junk (runA V c t h0).2.2.1),
   VS1_2.read (Elt F) (VS1_2.writes (Elt F) VS1_2.junk (runA V c t h0).2.2.2.1),
   VS1_3.read (Elt F) (VS1_3.writes (Elt F) VS1_3.junk (runA V c t h0).2.2.2.2.1),
   VS1_4.read (Elt F) (VS1_4.writes (Elt F) VS1_4.junk (runA V c t h0).2.2.2.2.2.1),
   VS1_5.read (Elt F) (VS1_5.writes (Elt F) VS1_5.junk (runA V c t h0).2.2.2.2.2.2.1))
def stB (c : Dev nD) (t : Fin cfg1.N) (h0 : ¬t.val % 2 = 0) (h1 : ¬t.val % 4 = 3) (s : Scr1 F) : Vec F S1x1024x128 .bf16 × Scr1 F :=
  (VO1_3.read (Elt F) (VO1_3.writes (Elt F) VO1_3.junk (runB V c t h0 h1 s).1), s)
def stC (c : Dev nD) (t : Fin cfg1.N) (h0 : ¬t.val % 2 = 0) (h1 : t.val % 4 = 3) (s : Scr1 F) : Vec F S1x1024x128 .bf16 × Scr1 F :=
  (VO1_3.read (Elt F) (VO1_3.writes (Elt F) VO1_3.junk (runC V c t h0 h1 s).1), VS1_0.read (Elt F) (VS1_0.writes (Elt F) VS1_0.junk (runC V c t h0 h1 s).2.1),
   VS1_1.read (Elt F) (VS1_1.writes (Elt F) VS1_1.junk (runC V c t h0 h1 s).2.2.1),
   VS1_2.read (Elt F) (VS1_2.writes (Elt F) VS1_2.junk (runC V c t h0 h1 s).2.2.2.1),
   VS1_3.read (Elt F) (VS1_3.writes (Elt F) VS1_3.junk (runC V c t h0 h1 s).2.2.2.2.1),
   VS1_4.read (Elt F) (VS1_4.writes (Elt F) VS1_4.junk (runC V c t h0 h1 s).2.2.2.2.2.1),
   VS1_5.read (Elt F) (VS1_5.writes (Elt F) VS1_5.junk (runC V c t h0 h1 s).2.2.2.2.2.2.1))

/-- The contents after the body at position `n`: an odd point works over what the point before left. -/
def outsAt1 (c : Dev nD) : (n : ℕ) → n < cfg1.N → Vec F S1x1024x128 .bf16 × Scr1 F
  | 0, hn => stA V c ⟨0, hn⟩ (Nat.zero_mod _)
  | n + 1, hn =>
    if h0 : (n + 1) % 2 = 0 then stA V c ⟨n + 1, hn⟩ h0
    else if h1 : (n + 1) % 4 = 3 then stC V c ⟨n + 1, hn⟩ h0 h1 (outsAt1 c n (Nat.lt_of_succ_lt hn)).2
    else stB V c ⟨n + 1, hn⟩ h0 h1 (outsAt1 c n (Nat.lt_of_succ_lt hn)).2

theorem outsAt1_A (c : Dev nD) (t : Fin cfg1.N) (h0 : t.val % 2 = 0) : outsAt1 V c t.val t.isLt = stA V c t h0 := by
  obtain ⟨n, hn⟩ := t
  cases n with
  | zero => exact rfl
  | succ n => exact (dif_pos h0).trans rfl

theorem outsAt1_B (c : Dev nD) (t : Fin cfg1.N) (h0 : ¬t.val % 2 = 0) (h1 : ¬t.val % 4 = 3) :
    outsAt1 V c t.val t.isLt = stB V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 2 = 0) (h1 : t.val % 4 = 3) :
    outsAt1 V c t.val t.isLt = stC V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2.1) ∗ owns (c : Thread nD τ) scM1_4 fullShare ((outsAt1 V c n hn).2.2.2.2.2.1) ∗ owns (c : Thread nD τ) scM1_5 fullShare ((outsAt1 V c n hn).2.2.2.2.2.2)) ∗ Rest1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2.1) ∗ owns (c : Thread nD τ) scM1_4 fullShare ((outsAt1 V c n hn).2.2.2.2.2.1) ∗ owns (c : Thread nD τ) scM1_5 fullShare ((outsAt1 V c n hn).2.2.2.2.2.2)) ∗ Rest1 (F := F) c ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2.1) ∗ owns (c : Thread nD τ) scM1_4 fullShare ((outsAt1 V c (n - 1) (by omega)).2.2.2.2.2.1) ∗ owns (c : Thread nD τ) scM1_5 fullShare ((outsAt1 V c (n - 1) (by omega)).2.2.2.2.2.2)) ∗ Rest1 (F := F) c ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- What the body is handed for each input window is that window's block of the entry array. -/
theorem before1 (c : Dev nD) (t : Fin cfg1.N) : (∀ d, (dat1 V c).before 0 t d = iblk1 V c 0 t)
    ∧ (∀ d, (dat1 V c).before 1 t d = iblk1 V c 1 t) ∧ ∀ d, (dat1 V c).before 2 t d = iblk1 V c 2 t := by
  refine ⟨?_, ?_, ?_⟩ <;>
    exact fun d => ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- Pieces that cover a whole memref determine what it holds, whatever it held before; read through any view. -/
theorem owns_writes {S : Shape} {e : EltTy} (c : Dev nD) (M : Memref sig .tc .vmem S e) (v : View sig .tc .vmem S e) (f)
    (L : List (View.Piece (Elt F) S e)) (hL : ∀ y, ∃ pc ∈ L, y ∈ pc.1.set) :
    (iprop(M.view.loc (c : Thread nD τ) ↦[M.view.set]{fullShare} M.view.writes (Elt F) f L) : sProp 𝕄)
      ⊢ owns (c : Thread nD τ) M fullShare (v.read (Elt F) (v.writes (Elt F) v.junk L)) := by
  unfold owns; iintro H; iexists _; isplitr
  swap; · iexact H
  ipureintro; exact View.read_writes_of_cover _ _ _ _ _ hL

/-- Before any point the invariant entails the region's entry invariant: the scratch buffers' named contents are forgotten. -/
theorem PhiS1_any (c : Dev nD) (n : ℕ) (h : n ≤ cfg1.N) : PhiS1 V c n h ⊢ Pipeline.ΦA spec1 c := by
  cases n with
  | zero => exact Idealize.SL.BI.Entails.refl _
  | succ n =>
    rw [PhiS1_succ, PhiA1_split]
    iintro ⟨⟨HS0, HS1, HS2, HS3, HS4, HS5⟩, HR, Hg⟩
    isplitl [HS0 HS1 HS2 HS3 HS4 HS5]
    · isplitl [HS0]; · iexists _; iexact HS0
      isplitl [HS1]; · iexists _; iexact HS1
      isplitl [HS2]; · iexists _; iexact HS2
      isplitl [HS3]; · iexists _; iexact HS3
      isplitl [HS4]; · iexists _; iexact HS4
      iexists _; iexact HS5
    isplitl [HR]; · iexact HR
    iexact Hg

theorem leaves1_0 (c : Dev nD) (t : Fin cfg1.N) : (dat1 V c).leavesExact 0 t = owns (c : Thread nD τ) (ms1_0 t) fullShare (iblk1 V c 0 t) := by
  rw [← after1_0 V c t]
theorem leaves1_1 (c : Dev nD) (t : Fin cfg1.N) : (dat1 V c).leavesExact 1 t = owns (c : Thread nD τ) (ms1_1 t) fullShare (iblk1 V c 1 t) := by
  rw [← after1_1 V c t]
theorem leaves1_2 (c : Dev nD) (t : Fin cfg1.N) : (dat1 V c).leavesExact 2 t = owns (c : Thread nD τ) (ms1_2 t) fullShare (iblk1 V c 2 t) := by
  rw [← after1_2 V c t]

set_option maxHeartbeats 4800000 in
/-- An even point: the scratch buffers come in at anything and go back at the stored pieces; nothing is stored into the output block. -/
theorem sound_body1_A (c : Dev nD) (t : Fin cfg1.N) (h0 : t.val % 2 = 0) :
    bodyPre1 V c t ⊢ wp frame (wpE (defs₀ (F := F)) Variants.none c none) Set.univ (bodyAt1 t) (fun _ => bodyPost1 V c t) := by
  unfold bodyPre1 bodyPost1 bodyAt1
  obtain ⟨b0, b1, b2⟩ := before1 V c t
  simp only [b0, b1, b2]
  rw [show (dat1 V c).owesAt () t.succ = (dat1 V c).owesAt () t.castSucc from rfl,
    show (dat1 V c).Φ t.succ = PhiS1 V c (t.val + 1) t.isLt from rfl, PhiS1_succ, leaves1_0, leaves1_1, leaves1_2,
    Dat.leavesExact_idle (dat1 V c) 3 t (idleAt1_3_A t ((hcond1_0 t).mpr h0) (caseA_c1 t h0) (caseA_c2 t h0)) (noFlush1_3_A t ((hcond1_0 t).mpr h0) (caseA_c1 t h0) (caseA_c2 t h0)), PhiS1_castSucc V c t]
  refine (sep_mono_l (PhiS1_any V c _ _)).trans ?_
  change (iprop(_ ∗ _) : sProp 𝕄) ⊢ _
  rw [PhiA1_split, outsAt1_A V c t h0]
  unfold stA; (try dsimp only)
  iintro ⟨⟨⟨HS0, HS1, HS2, HS3, HS4, HS5⟩, HR, Hg⟩, Ho, ⟨%d0, H0⟩, ⟨%d1, H1⟩, ⟨%d2, H2⟩, ⟨%d3, H3⟩⟩
  iapply ((runA V c t h0).2.2.2.2.2.2.2 _ Set.univ _)
  iframe
  iintro ⟨H0, H1, H2, H3, ⟨%es0, HS0⟩, ⟨%es1, HS1⟩, ⟨%es2, HS2⟩, ⟨%es3, HS3⟩, ⟨%es4, HS4⟩, ⟨%es5, HS5⟩⟩
  iframe
  isplitr [H3]
  · isplitl [HS0]; · iapply owns_writes c scM1_0 _ _ _ (coverA V c t h0).1; iexact HS0
    isplitl [HS1]; · iapply owns_writes c scM1_1 _ _ _ (coverA V c t h0).2.1; iexact HS1
    isplitl [HS2]; · iapply owns_writes c scM1_2 _ _ _ (coverA V c t h0).2.2.1; iexact HS2
    isplitl [HS3]; · iapply owns_writes c scM1_3 _ _ _ (coverA V c t h0).2.2.2.1; iexact HS3
    isplitl [HS4]; · iapply owns_writes c scM1_4 _ _ _ (coverA V c t h0).2.2.2.2.1; iexact HS4
    iapply owns_writes c scM1_5 _ _ _ (coverA V c t h0).2.2.2.2.2; iexact HS5
  iexists _; iexact H3

set_option maxHeartbeats 4800000 in
/-- A point ≡ 3 (mod 4): the scratch buffers come in at what the point before left; each, and the output block, is stored whole. -/
theorem sound_body1_C (c : Dev nD) (t : Fin cfg1.N) (h0 : ¬t.val % 2 = 0) (h1 : t.val % 4 = 3) :
    bodyPre1 V c t ⊢ wp frame (wpE (defs₀ (F := F)) Variants.none c none) Set.univ (bodyAt1 t) (fun _ => bodyPost1 V c t) := by
  unfold bodyPre1 bodyPost1 bodyAt1
  obtain ⟨b0, b1, b2⟩ := before1 V c t
  simp only [b0, b1, b2]
  rw [show (dat1 V c).owesAt () t.succ = (dat1 V c).owesAt () t.castSucc from rfl,
    show (dat1 V c).Φ t.succ = PhiS1 V c (t.val + 1) t.isLt from rfl, PhiS1_succ, leaves1_0, leaves1_1, leaves1_2,
    show (dat1 V c).leavesExact 3 t = owns (c : Thread nD τ) (ms1_3 t) fullShare ((dat1 V c).after 3 t) from by
      unfold Dat.leavesExact; rw [liveAt1_3_C t (caseBC_c0 t h0) (caseC_c1 t h1) (caseBC_c2 t h0)], after1_3, PhiS1_castSucc V c t]
  rw [PhiS1_pos V c _ _ (by omega : t.val ≠ 0), outsAt1_C V c t h0 h1]
  unfold stC; (try dsimp only)
  iintro ⟨⟨⟨HS0, HS1, HS2, HS3, HS4, HS5⟩, HR, Hg⟩, Ho, ⟨%d0, H0⟩, ⟨%d1, H1⟩, ⟨%d2, H2⟩, ⟨%d3, H3⟩⟩
  iapply ((runC V c t h0 h1 _).2.2.2.2.2.2.2 Set.univ _)
  iframe
  isplitl [H3]; · iexists _; iexact H3
  iintro ⟨H0, H1, H2, ⟨%e3, H3⟩, ⟨%es0, HS0⟩, ⟨%es1, HS1⟩, ⟨%es2, HS2⟩, ⟨%es3, HS3⟩, ⟨%es4, HS4⟩, ⟨%es5, HS5⟩⟩
  iframe
  isplitr [H3]
  · isplitl [HS0]; · iapply owns_writes c scM1_0 _ _ _ ((coverC V c t h0 h1 _).2).1; iexact HS0
    isplitl [HS1]; · iapply owns_writes c scM1_1 _ _ _ ((coverC V c t h0 h1 _).2).2.1; iexact HS1
    isplitl [HS2]; · iapply owns_writes c scM1_2 _ _ _ ((coverC V c t h0 h1 _).2).2.2.1; iexact HS2
    isplitl [HS3]; · iapply owns_writes c scM1_3 _ _ _ ((coverC V c t h0 h1 _).2).2.2.2.1; iexact HS3
    isplitl [HS4]; · iapply owns_writes c scM1_4 _ _ _ ((coverC V c t h0 h1 _).2).2.2.2.2.1; iexact HS4
    iapply owns_writes c scM1_5 _ _ _ ((coverC V c t h0 h1 _).2).2.2.2.2.2; iexact HS5
  iapply owns_writes c (ms1_3 t) _ _ _ (coverC V c t h0 h1 _).1; iexact H3

set_option maxHeartbeats 4800000 in
/-- A point ≡ 1 (mod 4): the scratch buffers are only read and go back as they came; the output block is stored whole. -/
theorem sound_body1_B (c : Dev nD) (t : Fin cfg1.N) (h0 : ¬t.val % 2 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  obtain ⟨b0, b1, b2⟩ := before1 V c t
  simp only [b0, b1, b2]
  rw [show (dat1 V c).owesAt () t.succ = (dat1 V c).owesAt () t.castSucc from rfl,
    show (dat1 V c).Φ t.succ = PhiS1 V c (t.val + 1) t.isLt from rfl, PhiS1_succ, leaves1_0, leaves1_1, leaves1_2,
    show (dat1 V c).leavesExact 3 t = owns (c : Thread nD τ) (ms1_3 t) fullShare ((dat1 V c).after 3 t) from by
      unfold Dat.leavesExact; rw [liveAt1_3_B t (caseBC_c0 t h0) (caseB_c1 t h0 h1) (caseBC_c2 t h0)], after1_3, PhiS1_castSucc V c t]
  rw [PhiS1_pos V c _ _ (by omega : t.val ≠ 0), outsAt1_B V c t h0 h1]
  unfold stB; (try dsimp only)
  iintro ⟨⟨⟨HS0, HS1, HS2, HS3, HS4, HS5⟩, HR, Hg⟩, Ho, ⟨%d0, H0⟩, ⟨%d1, H1⟩, ⟨%d2, H2⟩, ⟨%d3, H3⟩⟩
  iapply ((runB V c t h0 h1 _).2.2.2.2.2.2.2 Set.univ _)
  iframe
  isplitl [H3]; · iexists _; iexact H3
  iintro ⟨H0, H1, H2, ⟨%e3, H3⟩, HS0, HS1, HS2, HS3, HS4, HS5⟩
  iframe
  iapply owns_writes c (ms1_3 t) _ _ _ (coverB V c t h0 h1 _); iexact H3

/-- Any point: the closed forms say which case it is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 2 = 0
  · exact sound_body1_A V c t h0
  · by_cases h1 : t.val % 4 = 3
    · exact sound_body1_C V c t h0 h1
    · exact sound_body1_B V c t h0 h1

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c :=
  PhiS1_any V c (Fin.last cfg1.N).val (Nat.le_of_lt_succ (Fin.last cfg1.N).isLt)

end Region1

end Cert.Kernel.Hand

end
-- ==== Proof.WR2.lean ====
import proofs.«410688_j9775345566104_3_alg».proof.Proof.Gen.Kernel.Launch
import proofs.«410688_j9775345566104_3_alg».proof.Proof.Gen.Kernel.Skeleton
import proofs.«410688_j9775345566104_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t` of the arrays the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024x1024 := Rect.unit (s := S1024x1024) ![0, 0] S1024x1024.size inb_S1024x1024_S1024x1024_0_0
abbrev r2_1 : Rect S1x1024 := Rect.unit (s := S1x1024) ![0, 0] S1x1024.size inb_S1x1024_S1x1024_0_0

/-- The output block after the body: its one store, of the payload of the three loaded blocks. -/
def out2_3 (x0 : Vec F S1024x1024 .bf16) (x1 : Vec F S1024x1024 .bf16) (x2 : Vec F S1x1024 .f32) : Vec F S1024x1024 .f32 :=
  View.canon [⟨r2_0, k2_pay1 (View.ld x0 r2_0) (View.ld x1 r2_0) (View.ld x2 r2_1)⟩]

set_option maxHeartbeats 1000000 in
/-- The body's triple: the inputs' memrefs are left as read, the output's at `out2_3` of them, since the one store covers the block. -/
theorem sound_kernel2 (c : Dev nD) (E : Set ℕ) (i : grid2.Coords) (arg0 : Memref sig .tc .vmem S1024x1024 .bf16) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S1024x1024 .f32) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__linear_kernel i arg0 harg0 arg1 harg1 arg2 harg2 arg3 harg3) K := by
  simp only [cc2__linear_kernel_eq_skeleton]; unfold cc2__linear_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1024x1024.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- What the body leaves, window by window. -/
theorem after2 (c : Dev nD) (t : Fin cfg2.N) : (dat2 V c).after 0 t = iblk2 V c 0 t ∧ (dat2 V c).after 1 t = iblk2 V c 1 t
    ∧ (dat2 V c).after 2 t = iblk2 V c 2 t ∧ (dat2 V c).after 3 t = out2_3 (iblk2 V c 0 t) (iblk2 V c 1 t) (iblk2 V c 2 t) := by
  dsimp only [dat2]; exact ⟨rfl, rfl, rfl, rfl⟩

/-- What the body is handed for each input window is that window's block of the entry arrays. -/
theorem before2 (c : Dev nD) (t : Fin cfg2.N) : (∀ d, (dat2 V c).before 0 t d = iblk2 V c 0 t)
    ∧ (∀ d, (dat2 V c).before 1 t d = iblk2 V c 1 t) ∧ ∀ d, (dat2 V c).before 2 t d = iblk2 V c 2 t := by
  refine ⟨?_, ?_, ?_⟩ <;>
    exact fun d => ((dat2 V c).before_in_eq_fetched _ rfl (fun _ => rfl) (fun _ _ _ => rfl) (fun _ => rfl) t d).trans rfl

/-- The body's triple at a point of the grid, the invariant framed. -/
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d)))
    ⊢ wp frame (wpE (defs₀ (F := F)) Variants.none c none) Set.univ (bodyAt2 t) fun _ =>
      iprop((dat2 V c).Φ t.succ ∗ (dat2 V c).owesAt () t.succ
        ∗ owns (c : Thread nD τ) (st2_0 t) fullShare ((dat2 V c).after 0 t) ∗ owns (c : Thread nD τ) (st2_1 t) fullShare ((dat2 V c).after 1 t)
        ∗ owns (c : Thread nD τ) (st2_2 t) fullShare ((dat2 V c).after 2 t) ∗ owns (c : Thread nD τ) (st2_3 t) fullShare ((dat2 V c).after 3 t)) := by
  obtain ⟨b0, b1, b2⟩ := before2 V c t
  obtain ⟨a0, a1, a2, a3⟩ := after2 V c t
  simp only [b0, b1, b2]
  rw [show (dat2 V c).Φ t.succ = (dat2 V c).Φ t.castSucc from rfl,
    show (dat2 V c).owesAt () t.succ = (dat2 V c).owesAt () t.castSucc from rfl, a0, a1, a2, a3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.WRun.lean ====
import proofs.«410688_j9775345566104_3_alg».proof.Proof.Gen.Kernel.Launch
import proofs.«410688_j9775345566104_3_alg».proof.Proof.Gen.Kernel.Skeleton
import proofs.«410688_j9775345566104_3_alg».proof.Proof.Gen.Kernel.Points
import proofs.«410688_j9775345566104_3_alg».proof.Proof.Gen.Kernel.Regions
import proofs.«410688_j9775345566104_3_alg».proof.Proof.WR1Share
import proofs.«410688_j9775345566104_3_alg».proof.Proof.WR0
import proofs.«410688_j9775345566104_3_alg».proof.Proof.WR1
import proofs.«410688_j9775345566104_3_alg».proof.Proof.WR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section R1Arrays
variable {c : Dev nD} (dat : Dat τ (Elt F) Unit ℕ (UR sig nD τ) ℕ cfg1 c) (hq : dat.q = q1)

/-- The four windows of custom_call 1 stand on two distinct buffers. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v10) ↦{fullShare} V main_v10) ∗ (((c : Thread nD τ).loc main_v11) ↦{fullShare} V main_v11)) := by
  unfold Pipeline.arrBufs
  exact bigSep_eq_bigSepL_of_eq [main_v10, main_v11] (by decide) (by decide) _

include hq in
theorem share1 : ∀ w, dat.share w = q1 w
  | 0 | 1 | 2 | 3 => by unfold Dat.share; rw [hq]; rfl

include hq in
/-- The two buffers whole are the four windows' arrays: the one array's full share splits along q1 and joins back. -/
theorem arrays1_iff (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊣⊢ dat.arrays G := by
  unfold Dat.arrays
  rw [arrBufs1_eq, bigSep_W1, (arr_whole1 0).set_eq_univ, (arr_whole1 3).set_eq_univ, share1 dat hq 0, share1 dat hq 1,
    share1 dat hq 2, share1 dat hq 3, show G 0 = V main_v10 from hG 0, show G 1 = V main_v10 from hG 1,
    show G 2 = V main_v10 from hG 2, show G 3 = V main_v11 from hG 3]
  exact (sep_congr ((pointsTo_share q1_split_full).trans (sep_congr .rfl (pointsTo_share q1_split_right))) .rfl).trans
    (sep_assoc.trans (sep_congr .rfl sep_assoc))

end R1Arrays

theorem held_split1 (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec1 c (fun b => W b)
          ∗ Pipeline.unscopedRest (Ix := Unit) (Name := ℕ) (U := UR sig nD τ) (Lvl := ℕ) spec1 c (fun b => W b)) :=
  (Pipeline.unscopedBufs_held c W).symm.trans
    (Pipeline.unscopedBufs_split₀ (Pipeline.pin (pcfgs (F := F)) adm) 1 winFacts₀1.arr_unscoped c _)

/-- Core c holds every unscoped buffer at the valuation W c. -/
abbrev heldAt (W : Dev nD → Valuation τ sig (Elt F)) (c : Dev nD) : sProp 𝕄 :=
  StableHlo.held (c : Thread nD τ) (Pipeline.ucRefs τ sig) (W c)

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- Region 0's exit contents: its windows' arrays at the proof data's final contents, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- Region 1's exit contents: only its output window's array changes; the array its three input windows share stays. -/
def W4 (c : Dev nD) : Valuation τ sig (Elt F) :=
  Function.update (W3 m ρ c) (Proc.devRef .tc main_v11) ((dat1 (V3 m ρ) c).arrAt 3 cfg1.N)
theorem W4_of_ne (c : Dev nD) (b : Ref sig .tc) (hb : ∀ w, Pipeline.arrRef spec1 w ≠ b) :
    W4 m ρ c (Proc.devRef .tc b) = W3 m ρ c (Proc.devRef .tc b) := by
  unfold W4
  exact Function.update_of_ne (StableHlo.devRef_ne_of_ne (Ne.symm (hb 3)) : (Proc.devRef .tc b : DevRef τ sig) ≠ Proc.devRef .tc main_v11) _ _
theorem W4_main_v11 (c : Dev nD) : W4 m ρ c (Proc.devRef .tc main_v11) = (dat1 (V3 m ρ) c).arrAt 3 cfg1.N := by
  unfold W4; exact Function.update_self _ _ _
abbrev V4 : (c : Dev nD) → (b : Ref sig .tc) → Buf (Elt F) ((c : Thread nD τ).loc b) := fun c b => W4 m ρ c b
theorem W4_main_v10 (c : Dev nD) : W4 m ρ c (Proc.devRef .tc main_v10) = W3 m ρ c (Proc.devRef .tc main_v10) := by
  unfold W4
  exact Function.update_of_ne (StableHlo.devRef_ne_of_ne (by decide) : (Proc.devRef .tc main_v10 : DevRef τ sig) ≠ Proc.devRef .tc main_v11) _ _
theorem hF1 (c : Dev nD) : ∀ w, (dat1 (V3 m ρ) c).arrAt w cfg1.N = V4 m ρ c (Pipeline.arrRef spec1 w)
  | 3 => (W4_main_v11 m ρ c).symm
  | 0 | 1 | 2 => (((dat1 (V3 m ρ) c).arrAt_in _ rfl _).trans (A_eq1 (V3 m ρ) c _)).trans (W4_main_v10 m ρ c).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev W7 : Dev nD → Valuation τ sig (Elt F) := fun c => StableHlo.after hostOps3 (W6 m ρ c)

/-- A buffer no host operation writes and no region windows holds at the end what it held at launch. -/
theorem W7_of_untouched (c : Dev nD) (b : Ref sig .tc) (h : b ∉ hostOps0_W ∧ (∀ w, Pipeline.arrRef spec0 w ≠ b)
    ∧ b ∉ hostOps1_W ∧ (∀ w, Pipeline.arrRef spec1 w ≠ b) ∧ b ∉ hostOps2_W ∧ (∀ w, Pipeline.arrRef spec2 w ≠ b)
    ∧ b ∉ hostOps3_W) : W7 m ρ c (Proc.devRef .tc b) = m ((c : Thread nD τ).loc b) :=
  (StableHlo.after_of_writes_sub hostOps3 _ hostOps3_writes h.2.2.2.2.2.2).trans <|
    (W6_of_ne m ρ c b h.2.2.2.2.2.1).trans <| (StableHlo.after_of_writes_sub hostOps2 _ hostOps2_writes h.2.2.2.2.1).trans <|
    (W4_of_ne m ρ c b h.2.2.2.1).trans <| (StableHlo.after_of_writes_sub hostOps1 _ hostOps1_writes h.2.2.1).trans <|
    (W2_of_ne m ρ c b h.2.1).trans <| StableHlo.after_of_writes_sub hostOps0 _ hostOps0_writes h.1

theorem W7_main_arg0 (c : Dev nD) : W7 m ρ c (Proc.devRef .tc main_arg0) = m ((c : Thread nD τ).loc main_arg0) :=
  W7_of_untouched m ρ c _ (by decide)
theorem W7_main_arg1 (c : Dev nD) : W7 m ρ c (Proc.devRef .tc main_arg1) = m ((c : Thread nD τ).loc main_arg1) :=
  W7_of_untouched m ρ c _ (by decide)
theorem W7_main_arg2 (c : Dev nD) : W7 m ρ c (Proc.devRef .tc main_arg2) = m ((c : Thread nD τ).loc main_arg2) :=
  W7_of_untouched m ρ c _ (by decide)
theorem W7_main_arg3 (c : Dev nD) : W7 m ρ c (Proc.devRef .tc main_arg3) = m ((c : Thread nD τ).loc main_arg3) :=
  W7_of_untouched m ρ c _ (by decide)
theorem W7_main_arg4 (c : Dev nD) : W7 m ρ c (Proc.devRef .tc main_arg4) = m ((c : Thread nD τ).loc main_arg4) :=
  W7_of_untouched m ρ c _ (by decide)
theorem W7_main_arg5 (c : Dev nD) : W7 m ρ c (Proc.devRef .tc main_arg5) = m ((c : Thread nD τ).loc main_arg5) :=
  W7_of_untouched m ρ c _ (by decide)
theorem W7_main_arg6 (c : Dev nD) : W7 m ρ c (Proc.devRef .tc main_arg6) = m ((c : Thread nD τ).loc main_arg6) :=
  W7_of_untouched m ρ c _ (by decide)
theorem W7_main_arg7 (c : Dev nD) : W7 m ρ c (Proc.devRef .tc main_arg7) = m ((c : Thread nD τ).loc main_arg7) :=
  W7_of_untouched m ρ c _ (by decide)
theorem W7_main_arg8 (c : Dev nD) : W7 m ρ c (Proc.devRef .tc main_arg8) = m ((c : Thread nD τ).loc main_arg8) :=
  W7_of_untouched m ρ c _ (by decide)

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What is carried beside the buffers through every segment. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(heldAt (W7 m ρ) c ∗ ∃ r, prngReg c r)

theorem unscopedRest1_exit (c : Dev nD) :
    (Pipeline.unscopedRest (Ix := Unit) (Name := ℕ) (U := UR sig nD τ) (Lvl := ℕ) spec1 c (V4 m ρ c) : sProp 𝕄)
      = Pipeline.unscopedRest (Ix := Unit) (Name := ℕ) (U := UR sig nD τ) (Lvl := ℕ) spec1 c (V3 m ρ c) := by
  unfold Pipeline.unscopedRest
  exact bigSep_congr fun b hb => by rw [hrest1 m ρ c b (Finset.mem_sdiff.mp hb).2]

/-- A region as a segment of the run: its arrays are split out of the held buffers at entry and put back at exit. -/
def mkReg (p : Fin 3) (win : Pipeline.WinFacts₀ (pcfgs (F := F) p).spec)
    (block_pos : ∀ w : Fin (cfgs p).W, 0 < ((cfgs p).spec w).block.numel)
    (stage_whole : ∀ (w : Fin (cfgs p).W) (s : Fin ((cfgs p).spec w).nbuf), (((cfgs p).spec w).stage s).IsWhole)
    (Wi Wo : Dev nD → Valuation τ sig (Elt F)) (Z : Dev nD → sProp 𝕄)
    (hbody : ∀ c, BodyObligation (pdats m ρ p c) (defs₀ (F := F)) Variants.none () Set.univ)
    (howed : ∀ c t, (pdats m ρ p c).owed t = 0)
    (hbound : ∀ c (W : Finset (SemLoc sig × Unit)), (↑W : Set (SemLoc sig × Unit)) ⊆ (pdats m ρ p c).bound () 0)
    (hsplit : ∀ c : Dev nD, heldAt Wi c
      ⊢ iprop((pdats m ρ p c).arrays ((pdats m ρ p c).arrAt · 0) ∗ Z c))
    (hjoin : ∀ c : Dev nD, iprop((pdats m ρ p c).arrays ((pdats m ρ p c).arrAt · (cfgs p).N) ∗ Z c)
      ⊢ heldAt Wo c)
    (hin : ∀ c : Dev nD, (Pipeline.ΦA (cfgs p).spec c : sProp 𝕄) ⊢ (pdats m ρ p c).Φ 0)
    (hout : ∀ c : Dev nD, (pdats m ρ p c).Φ (Fin.last (cfgs p).N) ⊢ (Pipeline.ΦA (cfgs p).spec c : sProp 𝕄)) :
    Pipeline.RegionSeg (pcfgs (F := F)) adm (pdats m ρ) () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p howed
  pre c := iprop(heldAt Wi c ∗ R c)
  post c := iprop(heldAt Wo c ∗ R c)
  X c := iprop(∃ r, prngReg c r)
  Y c := iprop(∃ r, prngReg c r)
  Z := Z
  hentry c := by
    rw [Pipeline.ownSems0_none]
    iintro ⟨⟨Hub, Hp, HO⟩, -, -⟩
    ihave H := hsplit c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact hbound c W
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply hjoin c; isplitl [Ha] <;> iassumption
    isplitl [HY]; · iexact HY
    unfold Pipeline.Dat.owesAt Pipeline.owesWithin; rw [howed c]
    icases HO with ⟨%W, -, HO⟩; iexists W; iexact HO

/-- A region whose windows stand on distinct whole buffers at the full share, with one invariant at every point. -/
def regFull (p : Fin 3) (lf : Pipeline.LaunchFacts (nD := nD) (τ := τ) cfgs p) (Wi Wo : Dev nD → Valuation τ sig (Elt F))
    (hbody : ∀ c, BodyObligation (pdats m ρ p c) (defs₀ (F := F)) Variants.none () Set.univ)
    (howed : ∀ c t, (pdats m ρ p c).owed t = 0)
    (hbound : ∀ c (W : Finset (SemLoc sig × Unit)), (↑W : Set (SemLoc sig × Unit)) ⊆ (pdats m ρ p c).bound () 0)
    (hq : ∀ c w, (pdats m ρ p c).q w = fullShare)
    (hA : ∀ c w, (pdats m ρ p c).A w = Wi c (Proc.devRef .tc (Pipeline.arrRef (cfgs p).spec w)))
    (hΦ : ∀ c t, (pdats m ρ p c).Φ t = Pipeline.ΦA (cfgs p).spec c)
    (harr : ∀ c w, Wo c (Proc.devRef .tc (Pipeline.arrRef (cfgs p).spec w)) = (pdats m ρ p c).arrAt w (cfgs p).N)
    (hne : ∀ c (b : Ref sig .tc), (∀ w, Pipeline.arrRef (cfgs p).spec w ≠ b) → Wo c (Proc.devRef .tc b) = Wi c (Proc.devRef .tc b)) :
    Pipeline.RegionSeg (pcfgs (F := F)) adm (pdats m ρ) () defs₀ 𝒱₀ L lv p :=
  mkReg m ρ p lf.win.to₀ lf.block_pos lf.stage_whole Wi Wo _ hbody howed hbound
    (fun c => (Entails.of_eq (Pipeline.unscopedBufs_held c (Wi c)).symm).trans
      (Pipeline.arrays_of_unscopedBufs (pcfgs (F := F)) adm (pdats m ρ) lf.win lf.arr_whole c
        ((pdats m ρ p c).share_full (hq c)) (fun b => Wi c b) (hA c)))
    (fun c => (Pipeline.unscopedBufs_of_arrays (pcfgs (F := F)) adm lf.win lf.arr_whole c (pdats m ρ)
        ((pdats m ρ p c).share_full (hq c)) (fun b => Wi c b) (fun b => Wo c b) _ (fun w => (harr c w).symm)
        (fun b hb => hne c b fun w e => hb (Finset.mem_image.mpr ⟨w, Finset.mem_univ _, e⟩))).trans
      (Entails.of_eq (Pipeline.unscopedBufs_held c (Wo c))))
    (fun c => Entails.of_eq (hΦ c 0).symm) fun c => Entails.of_eq (hΦ c _)

def reg0 : Pipeline.RegionSeg (pcfgs (F := F)) adm (pdats m ρ) () defs₀ 𝒱₀ L lv 0 :=
  regFull m ρ 0 launch0 (W1 m ρ) (W2 m ρ) (body_obligation0 _) (fun _ _ => rfl) (fun _ _ _ _ => Or.inl trivial)
    (fun _ _ => rfl) (fun _ _ => rfl) (fun _ _ => rfl) (W2_arr m ρ) (W2_of_ne m ρ)

def reg1 : Pipeline.RegionSeg (pcfgs (F := F)) adm (pdats m ρ) () defs₀ 𝒱₀ L lv 1 :=
  mkReg m ρ 1 winFacts₀1 block_pos1 stage_whole1 (W3 m ρ) (W4 m ρ) _ (body_obligation1 _) (fun _ _ => rfl)
    (fun _ _ _ _ => Or.inl trivial)
    (fun c => (Entails.of_eq (held_split1 c _)).trans
      (BIClass.sep_mono (arrays1_iff (dat1 (V3 m ρ) c) rfl (V3 m ρ c) _ (A_eq1 (V3 m ρ) c)).1 .rfl))
    (fun c => (BIClass.sep_mono (arrays1_iff (dat1 (V3 m ρ) c) rfl (V4 m ρ c) _ (hF1 m ρ c)).2
      (Entails.of_eq (unscopedRest1_exit m ρ c).symm)).trans (Entails.of_eq (held_split1 c _).symm))
    (hin1 _) (hout1 _)

def reg2 : Pipeline.RegionSeg (pcfgs (F := F)) adm (pdats m ρ) () defs₀ 𝒱₀ L lv 2 :=
  regFull m ρ 2 launch2 (W5 m ρ) (W6 m ρ) (body_obligation2 _) (fun _ _ => rfl) (fun _ _ _ _ => Or.inl trivial)
    (fun _ _ => rfl) (fun _ _ => rfl) (fun _ _ => rfl) (W6_arr m ρ) (W6_of_ne m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- Every fair run of @main ends, nothing faulting, with each unscoped buffer at the last boundary's contents. -/
theorem run_main {Q : PUnit × MemSt nD τ sig (Elt F) → Prop}
    (hQ : ∀ s : MemSt nD τ sig (Elt F), (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(heldAt (W0 m ρ) c ∗ R c)) (Tₙ := Tₙ m ρ)
    (hch := ⟨fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold heldAt StableHlo.held
      imodintro
      iapply (pointsTo_read_all (Pipeline.ucRefs τ sig) (fun b => (((c : Thread nD τ)).1, b)) (W7 m ρ c) s')
      isplitl [Hh] <;> iassumption)
    (hQ := hQ)

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_main m ρ fun s h c =>
    ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c)⟩

/-- The result is the last reshape of what region 2 leaves in its output window's array. -/
theorem W7_out (c : Dev nD) :
    W7 m ρ c (Proc.devRef .tc main_v18)
      = fun i => shapeCast S2048x2x1024 (W6 m ρ c (Proc.devRef .tc main_v17)) shapeCasts_S4096x1024_S2048x2x1024 i := by
  show StableHlo.after hostOps3 (W6 m ρ c) (Proc.devRef .tc main_v18) = _
  after_results; rfl

end Cert.Kernel.Hand

end
-- ==== Proof.LibLinear.lean ====
import Idealize.ShloMosaic.Lib.StackMember
import Idealize.ShloMosaic.Lib.ValueLayout
import Idealize.ShloMosaic.PureOps.Ideal.Laws

noncomputable section

namespace Cert.Lib

open Idealize.ShloMosaic Idealize.ShloMosaic.ValueIdx
open scoped BigOperators

/-- The all-zero offset of a rank-2 block. -/
theorem zero2 : (![0, 0] : Fin 2 → ℕ) = fun _ => 0 := funext fun a => by fin_cases a <;> rfl

/-- A product into the zero accumulator plus one row laid along every row, read at an index. -/
theorem linear_apply {M K N : ℕ} {φ₁ φ₂ : FTy} (a : FVec Ideal ⟨2, ![M, K]⟩ φ₁) (b : FVec Ideal ⟨2, ![K, N]⟩ φ₂)
    (v : FVec Ideal ⟨2, ![1, N]⟩ .f32) (h : (⟨2, ![1, N]⟩ : Shape).Broadcasts ⟨2, ![M, N]⟩) (j : (⟨2, ![M, N]⟩ : Shape).Idx) :
    addf (matmul (DotDims.plain M K N) none a b (constant _ .f32 0x00000000#32)) (broadcastTo ⟨2, ![M, N]⟩ v h) j
      = (∑ k : Fin K, a (ix2 (j 0) k) * b (ix2 k (j 1))) + v (ix2 0 (j 1)) := by
  obtain ⟨p, q, rfl⟩ : ∃ (p : Fin M) (q : Fin N), j = ix2 p q := ⟨j 0, j 1, eq_ix2 j⟩
  rw [addf_apply, matmul_zero_eq_dotGeneral, StackMember.dotGeneral_plain_apply, broadcastTo_1b_ab_apply]
  rfl

/-- A block of rows of the layer is the layer of the rows' block and the other two arrays whole, each block at its index times its size. -/
theorem linear_block {R M K N : ℕ} (X : (⟨2, ![R, K]⟩ : Shape).Idx → EReal) (W : (⟨2, ![K, N]⟩ : Shape).Idx → EReal)
    (B : (⟨2, ![1, N]⟩ : Shape).Idx → EReal) {eX : (⟨2, ![M, K]⟩ : Shape).Idx → (⟨2, ![R, K]⟩ : Shape).Idx}
    {eW : (⟨2, ![K, N]⟩ : Shape).Idx → (⟨2, ![K, N]⟩ : Shape).Idx} {eB : (⟨2, ![1, N]⟩ : Shape).Idx → (⟨2, ![1, N]⟩ : Shape).Idx}
    {eO : (⟨2, ![M, N]⟩ : Shape).Idx → (⟨2, ![R, N]⟩ : Shape).Idx} {iX iW iB iO : Fin 2 → ℕ}
    (hX : ∀ y a, (eX y a : ℕ) = iX a * ![M, K] a + y a) (hW : ∀ y a, (eW y a : ℕ) = iW a * ![K, N] a + y a)
    (hB : ∀ y a, (eB y a : ℕ) = iB a * ![1, N] a + y a) (hO : ∀ y a, (eO y a : ℕ) = iO a * ![M, N] a + y a)
    (h : iX 0 = iO 0 ∧ iX 1 = 0 ∧ iW 0 = 0 ∧ iW 1 = 0 ∧ iB 0 = 0 ∧ iB 1 = 0 ∧ iO 1 = 0) (j : (⟨2, ![M, N]⟩ : Shape).Idx) :
    (∑ k : Fin K, X (eX (ix2 (j 0) k)) * W (eW (ix2 k (j 1)))) + B (eB (ix2 0 (j 1)))
      = (∑ k : Fin K, X (ix2 (eO j 0) k) * W (ix2 k (eO j 1))) + B (ix2 0 (eO j 1)) := by
  obtain ⟨h0, h1, h2, h3, h4, h5, h6⟩ := h
  have eq : ∀ {m n : ℕ} {i i' : (⟨2, ![m, n]⟩ : Shape).Idx}, (i 0 : ℕ) = i' 0 → (i 1 : ℕ) = i' 1 → i = i' :=
    fun a b => funext fun x => Fin.ext (match x with | ⟨0, _⟩ => a | ⟨1, _⟩ => b)
  have z : ∀ s n : ℕ, 0 * s + n = n := fun s n => by omega
  have o1 : (eO j 1 : ℕ) = j 1 := by rw [hO, h6]; exact z _ _
  have hx : ∀ k, eX (ix2 (j 0) k) = ix2 (eO j 0) k := fun k => eq
    (show (eX (ix2 (j 0) k) 0 : ℕ) = (eO j 0 : ℕ) by rw [hX, hO, h0]; rfl)
    (show (eX (ix2 (j 0) k) 1 : ℕ) = (k : ℕ) by rw [hX, h1]; exact z _ _)
  have hw : ∀ k, eW (ix2 k (j 1)) = ix2 k (eO j 1) := fun k => eq
    (show (eW (ix2 k (j 1)) 0 : ℕ) = (k : ℕ) by rw [hW, h2]; exact z _ _)
    (show (eW (ix2 k (j 1)) 1 : ℕ) = (eO j 1 : ℕ) by rw [hW, h3, o1]; exact z _ _)
  have hb : eB (ix2 0 (j 1)) = ix2 0 (eO j 1) := eq
    (show (eB (ix2 0 (j 1)) 0 : ℕ) = 0 by rw [hB, h4]; exact z _ _)
    (show (eB (ix2 0 (j 1)) 1 : ℕ) = (eO j 1 : ℕ) by rw [hB, h5, o1]; exact z _ _)
  rw [hb]; exact congrArg (· + _) (Finset.sum_congr rfl fun k _ => by rw [hx, hw]; rfl)

end Cert.Lib

end
-- ==== Proof.R0Val.lean ====
import proofs.«410688_j9775345566104_3_alg».proof.Proof.R0
import proofs.«410688_j9775345566104_3_alg».proof.Proof.LibLinear
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Lib
open Idealize.ShloMosaic Idealize.ShloMosaic.TcCoe Idealize.SL.Sem Idealize.ShloMosaic.ValueIdx
open Idealize.ShloMosaic.Pipeline (Dat)
open scoped BigOperators

/-- Row `r` of `x` against column `q` of `w`, plus the bias at `q`. -/
def lin0At (x : S4096x1024.Idx → EReal) (w : S1024x3072.Idx → EReal) (b : S1x3072.Idx → EReal) (r : Fin 4096) (q : Fin 3072) : EReal :=
  (∑ k : Fin 1024, x (ix2 r k) * w (ix2 k q)) + b (ix2 0 q)

/-- The linear layer `x · w + b` as one function of the three arrays. -/
def lin0 (x : S4096x1024.Idx → EReal) (w : S1024x3072.Idx → EReal) (b : S1x3072.Idx → EReal) : S4096x3072.Idx → EReal :=
  fun i => lin0At x w b (i 0) (i 1)

/-- The body's payload at an index: the first block's row against the second's column, plus the third's entry of that column. -/
theorem pay0_apply (x0 : Vec Ideal S512x1024 .f32) (x1 : Vec Ideal S1024x3072 .bf16) (x2 : Vec Ideal S1x3072 .f32) (j : S512x3072.Idx) :
    k0_pay1 x0 x1 x2 j = (∑ k : Fin 1024, x0 (ix2 (j 0) k) * x1 (ix2 k (j 1))) + x2 (ix2 0 (j 1)) := by
  unfold k0_pay1; simp only [shapeCast_self]
  exact linear_apply _ _ _ _ j

section Region0
variable (V : (c : Dev nD) → (b : Ref sig .tc) → Buf (Elt Ideal) ((c : Thread nD τ).loc b))

/-- The index maps over the grid: the rows' block index is the output's, every other block index is zero. -/
theorem idx_facts0 : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (1 : Fin 2) = 0 :=
  (by decide +kernel : ∀ t : Fin grid0.N, _)

/-- Every row block of the output is some point's. -/
theorem idx_onto0 : ∀ q0 : Fin 8, ∃ t : Fin cfg0.N, win0_3.index t = ![q0.val, 0] :=
  (by decide +kernel : ∀ q0 : Fin 8, ∃ t : Fin grid0.N, win0_3.index t = ![q0.val, 0])

/-- What point `t` writes back is its block of the layer of the arrays the region is entered with. -/
theorem flushed0_eq (c : Dev nD) (t : Fin cfg0.N) :
    (dat0 (F := Ideal) V c).flushed 3 t = ((cfg0.win 3).blk t).view.read (Elt Ideal) (lin0 (V c main_v0) (V c main_v5) (V c main_v7)) := by
  show (cfg0.win 3).cut (grid0.coords t) ((dat0 V c).after 3 t) = _
  rw [(after0 V c t).2.2.2]
  unfold out0_3
  rw [View.canon_unit_zero zero2]
  simp only [View.ld_unit_zero (S := S512x1024) zero2, View.ld_unit_zero (S := S1024x3072) zero2, View.ld_unit_zero (S := S1x3072) zero2]
  funext j
  show k0_pay1 (iblk0 V c 0 t) (iblk0 V c 1 t) (iblk0 V c 2 t) j = lin0 (V c main_v0) (V c main_v5) (V c main_v7) (((cfg0.win 3).blk t).view.emb j)
  exact (pay0_apply _ _ _ j).trans (linear_block (R := 4096) (M := 512) (K := 1024) (N := 3072) (V c main_v0) (V c main_v5) (V c main_v7)
    (win0_0.rect_emb_val t) (win0_1.rect_emb_val t) (win0_2.rect_emb_val t) (win0_3.rect_emb_val t) (idx_facts0 t) j)

/-- Every index of the output array is in the block of the point its row names. -/
theorem cover0 (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := idx_onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  show i ∈ ((View.whole main_v8).slice (win0_3.rect t)).set
  rw [View.set_slice_whole, Rect.mem_set_unit]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- What the region leaves in its output array: the layer of the three input arrays as it finds them. -/
theorem final0 (c : Dev nD) :
    (dat0 (F := Ideal) V c).arrAt 3 cfg0.N = fun i => lin0 (V c main_v0) (V c main_v5) (V c main_v7) i :=
  (dat0 V c).arrAt_eq_of_cover 3 (lin0 (V c main_v0) (V c main_v5) (V c main_v7)) (fun t _ => flushed0_eq V c t) cover0

end Region0

end Cert.KernelIdeal.Hand

end
-- ==== Proof.R1Pieces.lean ====
import proofs.«410688_j9775345566104_3_alg».proof.Proof.R1RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

def upd1_0 (i : grid1.Coords) (x0 x1 : Vec F S1x1024x128 .bf16) (m0 : Vec F S1024x1 .f32) : Vec F S1024x1 .f32 :=
  k1_pay27 (k1_pay20 (BitVec.ofNat 32 (i 2).val) (BitVec.ofNat 32 (i 3).val) x0 x1 m0)

def upd1_1 (i : grid1.Coords) (x0 x1 : Vec F S1x1024x128 .bf16) (m0 l0 : Vec F S1024x1 .f32) : Vec F S1024x1 .f32 :=
  k1_pay25 (k1_pay23 (BitVec.ofNat 32 (i 2).val) (BitVec.ofNat 32 (i 3).val) x0 x1 m0 l0) (k1_pay24 (BitVec.ofNat 32 (i 2).val) (BitVec.ofNat 32 (i 3).val) x0 x1 m0)

def upd1_2 (i : grid1.Coords) (x0 x1 x2 : Vec F S1x1024x128 .bf16) (m0 : Vec F S1024x1 .f32) (acc0 : Vec F S1024x64 .f32) : Vec F S1024x64 .f32 :=
  k1_pay26 (k1_pay16 x2) (k1_pay21 (BitVec.ofNat 32 (i 2).val) (BitVec.ofNat 32 (i 3).val) x0 x1 m0) (k1_pay22 (BitVec.ofNat 32 (i 2).val) (BitVec.ofNat 32 (i 3).val) x0 x1 m0) acc0

def upd1_3 (i : grid1.Coords) (x0 x1 : Vec F S1x1024x128 .bf16) (m1 : Vec F S1024x1 .f32) : Vec F S1024x1 .f32 :=
  k1_pay9 (k1_pay29 (k1_pay14 x0) (k1_pay15 x1) (k1_pay18 (BitVec.ofNat 32 (i 2).val) (BitVec.ofNat 32 (i 3).val)) m1)

def upd1_4 (i : grid1.Coords) (x0 x1 : Vec F S1x1024x128 .bf16) (m1 l1 : Vec F S1024x1 .f32) : Vec F S1024x1 .f32 :=
  k1_pay7 (k1_pay32 (k1_pay14 x0) (k1_pay15 x1) (k1_pay18 (BitVec.ofNat 32 (i 2).val) (BitVec.ofNat 32 (i 3).val)) m1 l1)

def upd1_5 (i : grid1.Coords) (x0 x1 x2 : Vec F S1x1024x128 .bf16) (m1 : Vec F S1024x1 .f32) (acc1 : Vec F S1024x64 .f32) : Vec F S1024x64 .f32 :=
  k1_pay8 (k1_pay17 x2) (k1_pay30 (k1_pay14 x0) (k1_pay15 x1) (k1_pay18 (BitVec.ofNat 32 (i 2).val) (BitVec.ofNat 32 (i 3).val)) m1) (k1_pay31 (k1_pay14 x0) (k1_pay15 x1) (k1_pay18 (BitVec.ofNat 32 (i 2).val) (BitVec.ofNat 32 (i 3).val)) m1) acc1

section Pieces
variable (c : Dev nD) (i : grid1.Coords) (arg4 : Memref sig .tc .vmem S1x1024x128 .bf16) (harg4 : arg4.IsWhole) (arg5 : Memref sig .tc .vmem S1x1024x128 .bf16) (harg5 : arg5.IsWhole) (arg6 : Memref sig .tc .vmem S1x1024x128 .bf16) (harg6 : arg6.IsWhole) (arg7 : Memref sig .tc .vmem S1x1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x64 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x64 .f32) (harg13 : arg13.IsWhole)
  (x0 x1 x2 : Vec F S1x1024x128 .bf16)

set_option maxRecDepth 65536 in
/-- Case A resets the six scratch buffers and takes one step: each ends one step from its reset value. -/
theorem pieces1_A (hc0 : cond1_0 i) (hc1 : cond1_1 i) (hc2 : ¬cond1_2 i) :
    let r := kernelRun1_A c i arg4 harg4 arg5 harg5 arg6 harg6 arg7 harg7 arg8 harg8 arg9 harg9 arg10 harg10 arg11 harg11 arg12 harg12 arg13 harg13 hc0 hc1 hc2 x0 x1 x2
    (VS1_0.read (Elt F) (VS1_0.writes (Elt F) VS1_0.junk r.2.1),
     VS1_1.read (Elt F) (VS1_1.writes (Elt F) VS1_1.junk r.2.2.1),
     VS1_2.read (Elt F) (VS1_2.writes (Elt F) VS1_2.junk r.2.2.2.1),
     VS1_3.read (Elt F) (VS1_3.writes (Elt F) VS1_3.junk r.2.2.2.2.1),
     VS1_4.read (Elt F) (VS1_4.writes (Elt F) VS1_4.junk r.2.2.2.2.2.1),
     VS1_5.read (Elt F) (VS1_5.writes (Elt F) VS1_5.junk r.2.2.2.2.2.2.1))
      = (upd1_0 i x0 x1 k1_pay1, upd1_1 i x0 x1 k1_pay1 k1_pay2, upd1_2 i x0 x1 x2 k1_pay1 k1_pay3,
         upd1_3 i x0 x1 k1_pay4, upd1_4 i x0 x1 k1_pay4 k1_pay5, upd1_5 i x0 x1 x2 k1_pay4 k1_pay6) := by
  intro r
  refine congrArg₂ Prod.mk ?_ (congrArg₂ Prod.mk ?_ (congrArg₂ Prod.mk ?_ (congrArg₂ Prod.mk ?_ (congrArg₂ Prod.mk ?_ ?_))))
  all_goals
    rw [View.read_writes_eq_canon _ _ _ (View.cover_of_tiledL _ (Shape.size _) (by sl_kernel_rfl))]
    unfold r kernelRun1_A; dsimp only; sl_unfold_words
    first | rw [View.canon_cons_unit_zero (S := S1024x1) hz2] | rw [View.canon_cons_unit_zero (S := S1024x64) hz2]
    simp only [View.readAt_eq_ld, harg4.read_unread, harg5.read_unread, harg6.read_unread, harg8.read_unread, harg9.read_unread, harg10.read_unread, harg11.read_unread, harg12.read_unread, harg13.read_unread, View.ld_unit_zero (S := S1x1024x128) hz3, View.ld_unit_zero (S := S1024x1) hz2, View.ld_unit_zero (S := S1024x64) hz2, View.readCov_unit_zero (S := S1024x1) _ hz2, View.readCov_unit_zero (S := S1024x64) _ hz2, upd1_0, upd1_1, upd1_2, upd1_3, upd1_4, upd1_5]

variable (xs0 xs1 : Vec F S1024x1 .f32) (xs2 : Vec F S1024x64 .f32) (xs3 xs4 : Vec F S1024x1 .f32) (xs5 : Vec F S1024x64 .f32)

set_option maxRecDepth 65536 in
/-- Case B stores the output block alone: the two heads' accumulators over their running sums, of what the point before left. -/
theorem piece1_B_out3 (hc0 : ¬cond1_0 i) (hc1 : ¬cond1_1 i) (hc2 : cond1_2 i) :
    VO1_3.read (Elt F) (VO1_3.writes (Elt F) VO1_3.junk (kernelRun1_B c i arg4 harg4 arg5 harg5 arg6 harg6 arg7 harg7 arg8 harg8 arg9 harg9 arg10 harg10 arg11 harg11 arg12 harg12 arg13 harg13 hc0 hc1 hc2 x0 x1 x2 xs0 xs1 xs2 xs3 xs4 xs5).1) = k1_pay10 xs2 xs1 xs5 xs4 := by
  rw [View.read_writes_eq_canon _ _ _ (View.cover_of_tiledL _ S1x1024x128.size (by sl_kernel_rfl))]
  unfold kernelRun1_B; dsimp only; sl_unfold_words
  rw [View.canon_unit_zero (S := S1x1024x128) hz3]
  simp only [View.readAt_eq_ld, harg4.read_unread, harg5.read_unread, harg6.read_unread, harg8.read_unread, harg9.read_unread, harg10.read_unread, harg11.read_unread, harg12.read_unread, harg13.read_unread, View.ld_unit_zero (S := S1x1024x128) hz3, View.ld_unit_zero (S := S1024x1) hz2, View.ld_unit_zero (S := S1024x64) hz2, View.readCov_unit_zero (S := S1024x1) _ hz2, View.readCov_unit_zero (S := S1024x64) _ hz2]

set_option maxRecDepth 65536 in
/-- Case C takes a step and then stores the output block, of what its own step has just stored. -/
theorem piece1_C_out3 (hc0 : ¬cond1_0 i) (hc1 : cond1_1 i) (hc2 : cond1_2 i) :
    VO1_3.read (Elt F) (VO1_3.writes (Elt F) VO1_3.junk (kernelRun1_C c i arg4 harg4 arg5 harg5 arg6 harg6 arg7 harg7 arg8 harg8 arg9 harg9 arg10 harg10 arg11 harg11 arg12 harg12 arg13 harg13 hc0 hc1 hc2 x0 x1 x2 xs0 xs1 xs2 xs3 xs4 xs5).1)
      = k1_pay10 (upd1_2 i x0 x1 x2 xs0 xs2) (upd1_1 i x0 x1 xs0 xs1) (upd1_5 i x0 x1 x2 xs3 xs5) (upd1_4 i x0 x1 xs3 xs4) := by
  rw [View.read_writes_eq_canon _ _ _ (View.cover_of_tiledL _ S1x1024x128.size (by sl_kernel_rfl))]
  unfold kernelRun1_C; dsimp only; sl_unfold_words
  rw [View.canon_unit_zero (S := S1x1024x128) hz3]
  simp only [View.readAt_eq_ld, harg4.read_unread, harg5.read_unread, harg6.read_unread, harg8.read_unread, harg9.read_unread, harg10.read_unread, harg11.read_unread, harg12.read_unread, harg13.read_unread, View.ld_unit_zero (S := S1x1024x128) hz3, View.ld_unit_zero (S := S1024x1) hz2, View.ld_unit_zero (S := S1024x64) hz2, View.readCov_unit_zero (S := S1024x1) _ hz2, View.readCov_unit_zero (S := S1024x64) _ hz2, upd1_0, upd1_1, upd1_2, upd1_3, upd1_4, upd1_5]

end Pieces

end Cert.KernelIdeal.Hand

end
-- ==== Proof.Spec.lean ====
import Idealize.ShloMosaic.PureOps.Ideal

noncomputable section

namespace Cert.Spec

open Idealize.ShloMosaic

def IsReal (x : EReal) : Prop := ∃ r : ℝ, x = (r : EReal)

def lo {α : Type} (f : Fin 2048 → α) : Fin 1024 → α := fun k => f ⟨k.val, by have := k.isLt; omega⟩

def hi {α : Type} (f : Fin 2048 → α) : Fin 1024 → α := fun k => f ⟨1024 + k.val, by have := k.isLt; omega⟩

def rowMax {n : ℕ} (f : Fin n → EReal) : EReal := Finset.univ.sup f

def softmaxRow (sc vv : Fin 2048 → EReal) : EReal :=
  ∑ k, Ideal.div (Ideal.exp (sc k - rowMax sc)) (∑ j, Ideal.exp (sc j - rowMax sc)) * vv k

def step (st : EReal × EReal × EReal) (sc vv : Fin 1024 → EReal) : EReal × EReal × EReal :=
  (max st.1 (rowMax sc),
   Ideal.exp (st.1 - max st.1 (rowMax sc)) * st.2.1 + ∑ k, Ideal.exp (sc k - max st.1 (rowMax sc)),
   Ideal.exp (st.1 - max st.1 (rowMax sc)) * st.2.2 + ∑ k, Ideal.exp (sc k - max st.1 (rowMax sc)) * vv k)

def init : EReal × EReal × EReal := (⊥, 0, 0)

def quot (st : EReal × EReal × EReal) : EReal := Ideal.div st.2.2 st.2.1

def flashRow1 (sc0 vv0 : Fin 1024 → EReal) : EReal := quot (step init sc0 vv0)

def flashRow2 (sc0 vv0 sc1 vv1 : Fin 1024 → EReal) : EReal := quot (step (step init sc0 vv0) sc1 vv1)

def scaleK (x : EReal) : EReal := x * Ideal.ofBits .f32 0x3E000000#32

def scaleR (x : EReal) : EReal := Ideal.div x (Ideal.sqrt (Ideal.ofBits .f32 0x42800000#32))

def col (h : Fin 16) (d : Fin 64) : Fin 1024 := ⟨h.val * 64 + d.val, by have := h.isLt; have := d.isLt; omega⟩

def hd (j : Fin 1024) : Fin 16 := ⟨j.val / 64, by have := j.isLt; omega⟩

def dd (j : Fin 1024) : Fin 64 := ⟨j.val % 64, by have := j.isLt; omega⟩

def proj (x : Fin 2048 → Fin 2 → Fin 1024 → EReal) (W : Fin 1024 → Fin 1024 → EReal) (bias : Fin 1024 → EReal)
    (s : Fin 2048) (b : Fin 2) (e : Fin 1024) : EReal :=
  (∑ k, x s b k * W e k) + bias e

def scoresR (q k : Fin 2048 → Fin 64 → EReal) (s k' : Fin 2048) : EReal :=
  if k'.val ≤ s.val then scaleR (∑ d, q s d * k k' d) else ⊥

def ctxR (x : Fin 2048 → Fin 2 → Fin 1024 → EReal) (Wq Wk Wv : Fin 1024 → Fin 1024 → EReal) (bq bk bv : Fin 1024 → EReal)
    (s : Fin 2048) (b : Fin 2) (j : Fin 1024) : EReal :=
  softmaxRow
    (scoresR (fun s' d => proj x Wq bq s' b (col (hd j) d)) (fun s' d => proj x Wk bk s' b (col (hd j) d)) s)
    (fun k' => proj x Wv bv k' b (col (hd j) (dd j)))

def outR (x : Fin 2048 → Fin 2 → Fin 1024 → EReal) (Wq Wk Wv Wo : Fin 1024 → Fin 1024 → EReal) (bq bk bv bo : Fin 1024 → EReal)
    (s : Fin 2048) (b : Fin 2) (n : Fin 1024) : EReal :=
  (∑ j, ctxR x Wq Wk Wv bq bk bv s b j * Wo n j) + bo n

-- Three blocks of 1024 entries laid end to end: entry n lies in block n / 1024 at offset n % 1024.
def cat3 {α : Type} (a b c : Fin 1024 → α) (n : Fin 3072) : α :=
  ![a, b, c] ⟨n.val / 1024, by have := n.isLt; omega⟩ ⟨n.val % 1024, Nat.mod_lt _ (by decide)⟩

theorem cat3_at {α : Type} (a b c : Fin 1024 → α) (p : Fin 3) (j : Fin 1024) (n : Fin 3072)
    (hn : n.val = p.val * 1024 + j.val) : cat3 a b c n = ![a, b, c] p j :=
  have := j.isLt
  congrArg₂ ![a, b, c] (Fin.ext (by show n.val / 1024 = p.val; omega)) (Fin.ext (by show n.val % 1024 = j.val; omega))

def qkvK (x : Fin 2048 → Fin 2 → Fin 1024 → EReal) (Wq Wk Wv : Fin 1024 → Fin 1024 → EReal) (bq bk bv : Fin 1024 → EReal)
    (s : Fin 2048) (b : Fin 2) (n : Fin 3072) : EReal :=
  (∑ k, x s b k * cat3 Wq Wk Wv n k) + cat3 bq bk bv n

def qcol (h : Fin 16) (d : Fin 64) : Fin 3072 := ⟨h.val * 64 + d.val, by have := h.isLt; have := d.isLt; omega⟩
def kcol (h : Fin 16) (d : Fin 64) : Fin 3072 := ⟨1024 + (h.val * 64 + d.val), by have := h.isLt; have := d.isLt; omega⟩
def vcol (h : Fin 16) (d : Fin 64) : Fin 3072 := ⟨2048 + (h.val * 64 + d.val), by have := h.isLt; have := d.isLt; omega⟩

def scoresK (qkv : Fin 2048 → Fin 3072 → EReal) (h : Fin 16) (s k' : Fin 2048) : EReal :=
  if k'.val ≤ s.val then scaleK (∑ d : Fin 64, qkv s (qcol h d) * qkv k' (kcol h d)) else ⊥

def flashOut (qkv : Fin 2048 → Fin 3072 → EReal) (s : Fin 2048) (j : Fin 1024) : EReal :=
  if s.val < 1024 then
    flashRow1 (lo (scoresK qkv (hd j) s)) (lo fun k' => qkv k' (vcol (hd j) (dd j)))
  else
    flashRow2 (lo (scoresK qkv (hd j) s)) (lo fun k' => qkv k' (vcol (hd j) (dd j)))
      (hi (scoresK qkv (hd j) s)) (hi fun k' => qkv k' (vcol (hd j) (dd j)))

def ctxK (x : Fin 2048 → Fin 2 → Fin 1024 → EReal) (Wq Wk Wv : Fin 1024 → Fin 1024 → EReal) (bq bk bv : Fin 1024 → EReal)
    (b : Fin 2) (s : Fin 2048) (j : Fin 1024) : EReal :=
  flashOut (fun s' n => qkvK x Wq Wk Wv bq bk bv s' b n) s j

def outK (x : Fin 2048 → Fin 2 → Fin 1024 → EReal) (Wq Wk Wv Wo : Fin 1024 → Fin 1024 → EReal) (bq bk bv bo : Fin 1024 → EReal)
    (s : Fin 2048) (b : Fin 2) (n : Fin 1024) : EReal :=
  (∑ j, ctxK x Wq Wk Wv bq bk bv b s j * Wo n j) + bo n

end Cert.Spec

end
-- ==== Proof.LibRowMax.lean ====
import Mathlib.Data.EReal.Basic
import Mathlib.Data.Finset.Fold
import Mathlib.Data.Finset.Lattice.Fold

namespace Cert.Lib

/-- A finite supremum is by definition the fold of max from the bottom element. -/
theorem fold_max_bot_eq_sup {ι : Type*} (s : Finset ι) (f : ι → EReal) : s.fold max ⊥ f = s.sup f := rfl

end Cert.Lib
-- ==== Proof.R1Pay.lean ====
import proofs.«410688_j9775345566104_3_alg».proof.Proof.Gen.KernelIdeal.Skeleton
import proofs.«410688_j9775345566104_3_alg».proof.Proof.Spec
import proofs.«410688_j9775345566104_3_alg».proof.Proof.LibRowMax
import Idealize.ShloMosaic.Lib.ValueIdx
import Idealize.ShloMosaic.Lib.ValueLayout
import Idealize.ShloMosaic.Lib.WordArith
import Idealize.ShloMosaic.Lib.Pipeline.Value
import Idealize.ShloMosaic.PureOps.Ideal.Laws
import Idealize.ShloMosaic.PureOps.IdealRules

noncomputable section

namespace Cert.KernelIdeal.Hand

open Cert.KernelIdeal Cert.KernelIdeal.Gen
open Idealize.ShloMosaic Idealize.SL.Sem Idealize.ShloMosaic.ValueIdx

-- A rows-by-columns product into the zero array is, at an entry, the sum over the one contracted coordinate.
theorem matmul_plain_apply {M K N : ℕ} {φ₁ φ₂ : FTy} (A : FVec Ideal ⟨2, ![M, K]⟩ φ₁) (B : FVec Ideal ⟨2, ![K, N]⟩ φ₂)
    (r : Fin M) (c : Fin N) :
    FloatOps.matmul (DotDims.plain M K N) none A B (constant ⟨2, ![M, N]⟩ .f32 0x00000000#32) (ix2 r c)
      = ∑ k : Fin K, A (ix2 r k) * B (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((contrEquiv1 (DotDims.plain M K N) K rfl rfl).symm k) = ix2 k c :=
    funext fun a => Fin.ext (by
      match a with
      | ⟨0, _⟩ => exact hk
      | ⟨1, _⟩ => rfl)
  rw [el, er]

-- The causal mask of block (qi, ki): global key position at most global query position, no word overflowing.
theorem mask_apply (qi ki : ℕ) (hq : qi < 2) (hk : ki < 2) (r c : Fin 1024) :
    Gen.k1_pay18 (BitVec.ofNat 32 qi) (BitVec.ofNat 32 ki) (ix2 r c)
      = if ki * 1024 + c.val ≤ qi * 1024 + r.val then 1#1 else 0#1 := by
  have e : ∀ x a : ℕ, BitVec.ofNat 32 x + BitVec.ofNat 32 a * 1024#32 = BitVec.ofNat 32 (a * 1024 + x) := fun x a => by
    rw [← BitVec.ofNat_mul, ← BitVec.ofNat_add, Nat.add_comm]
  have hr := r.isLt
  have hc := c.isLt
  unfold Gen.k1_pay18
  show IntOp.cmpi .sge
      (IntOp.addi (iota .tc S1024x1024 32 [0] iota_S1024x1024_d0_w32 (ix2 r c)) (Scalar.muli (BitVec.ofNat 32 qi) 1024#32))
      (IntOp.addi (iota .tc S1024x1024 32 [1] iota_S1024x1024_d1_w32 (ix2 r c)) (Scalar.muli (BitVec.ofNat 32 ki) 1024#32)) = _
  rw [iota_single_apply, iota_single_apply]
  show BitVec.ofBool ((BitVec.ofNat 32 c.val + BitVec.ofNat 32 ki * 1024#32).sle
      (BitVec.ofNat 32 r.val + BitVec.ofNat 32 qi * 1024#32)) = _
  rw [e, e, BitVec.sle_eq_decide, WordArith.toInt_ofNat_small _ (by omega), WordArith.toInt_ofNat_small _ (by omega)]
  by_cases h : ki * 1024 + c.val ≤ qi * 1024 + r.val
  · rw [if_pos h, decide_eq_true (by exact_mod_cast h)]; rfl
  · rw [if_neg h, decide_eq_false (by exact_mod_cast h)]; rfl

theorem ofBits_neg_inf : Ideal.ofBits .f32 0xFF800000#32 = ⊥ := by simp [Ideal.ofBits, Ideal.ieee]

-- Sixty-four lanes from lane o of a block with a leading unit axis.
theorem lanes_apply (o : ℕ) (h : S1024x128.Slices ![0, o] S1024x64) (v : Vec Ideal S1x1024x128 .bf16) (r : Fin 1024) (d : Fin 64)
    (l : Fin 128) (hl : l.val = o + d.val) :
    extractStridedSlice S1024x64 ![0, o] (shapeCast S1024x128 v shapeCasts_S1x1024x128_S1024x128) h (ix2 r d) = v (ix3 0 r l) := by
  rw [slice2_axis1_apply o _ _ r d l hl, shapeCast_1ab_ab_apply]

theorem lo_apply (v : Vec Ideal S1x1024x128 .bf16) (r : Fin 1024) (d : Fin 64) :
    Gen.k1_pay16 v (ix2 r d) = v (ix3 0 r ⟨d.val, by omega⟩) :=
  lanes_apply 0 slices_S1024x128_o0_0_S1024x64 v r d _ (Nat.zero_add _).symm

theorem hi_apply (v : Vec Ideal S1x1024x128 .bf16) (r : Fin 1024) (d : Fin 64) :
    Gen.k1_pay17 v (ix2 r d) = v (ix3 0 r ⟨64 + d.val, by omega⟩) :=
  lanes_apply 64 slices_S1024x128_o0_64_S1024x64 v r d _ rfl

-- One head's masked, scaled scores, the query and key rows named by Q and K.
theorem scores_apply (qi ki : ℕ) (hq : qi < 2) (hk : ki < 2) (q k : FVec Ideal S1024x64 .bf16) (Q K : Fin 1024 → Fin 64 → EReal)
    (hQ : ∀ r d, q (ix2 r d) = Q r d) (hK : ∀ c d, k (ix2 c d) = K c d) (r c : Fin 1024) :
    Gen.k1_pay28 q k (Gen.k1_pay18 (BitVec.ofNat 32 qi) (BitVec.ofNat 32 ki)) (ix2 r c)
      = if ki * 1024 + c.val ≤ qi * 1024 + r.val then Cert.Spec.scaleK (∑ d : Fin 64, Q r d * K c d) else ⊥ := by
  simp only [Gen.k1_pay28]
  rw [select_apply, mask_apply qi ki hq hk]
  by_cases h : ki * 1024 + c.val ≤ qi * 1024 + r.val
  · rw [if_pos h, if_pos h, select_one, mulf_apply, broadcast_apply]
    refine congrArg (· * _) ((matmul_plain_apply _ _ r c).trans (Finset.sum_congr rfl fun d _ => ?_))
    rw [transpose_ix2_apply, hQ, hK]
  · rw [if_neg h, if_neg h, select_zero, broadcast_apply]
    exact IdealRules.named_const.ideal_named_scalar _ _ _ _ rfl

theorem pay19_apply (qi ki : ℕ) (hq : qi < 2) (hk : ki < 2) (v12 v14 : Vec Ideal S1x1024x128 .bf16) (r c : Fin 1024) :
    Gen.k1_pay19 (BitVec.ofNat 32 qi) (BitVec.ofNat 32 ki) v12 v14 (ix2 r c)
      = if ki * 1024 + c.val ≤ qi * 1024 + r.val then
          Cert.Spec.scaleK (∑ d : Fin 64, v12 (ix3 0 r ⟨d.val, by omega⟩) * v14 (ix3 0 c ⟨d.val, by omega⟩))
        else ⊥ :=
  scores_apply qi ki hq hk (Gen.k1_pay16 v12) (Gen.k1_pay16 v14) _ _ (lo_apply v12) (lo_apply v14) r c

theorem pay28_apply (qi ki : ℕ) (hq : qi < 2) (hk : ki < 2) (v12 v14 : Vec Ideal S1x1024x128 .bf16) (r c : Fin 1024) :
    Gen.k1_pay28 (Gen.k1_pay14 v12) (Gen.k1_pay15 v14) (Gen.k1_pay18 (BitVec.ofNat 32 qi) (BitVec.ofNat 32 ki)) (ix2 r c)
      = if ki * 1024 + c.val ≤ qi * 1024 + r.val then
          Cert.Spec.scaleK (∑ d : Fin 64, v12 (ix3 0 r ⟨64 + d.val, by omega⟩) * v14 (ix3 0 c ⟨64 + d.val, by omega⟩))
        else ⊥ :=
  scores_apply qi ki hq hk (Gen.k1_pay17 v12) (Gen.k1_pay17 v14) _ _ (hi_apply v12) (hi_apply v14) r c

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_one, Shape.rowMajor_val_two]
    show i.val = i.val * 1 + u.val
    omega)

theorem broadcastTo_a1_ab_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

theorem lift_row (r c : Fin 1024) : reduces_S1024x1024_S1024.lift (ix1 r) c = ix2 r c := by
  funext a
  match a with
  | ⟨0, _⟩ => rfl
  | ⟨1, _⟩ => rfl

-- The maximum over a row from minus infinity is the supremum of the row.
theorem rowmax_apply (src : FVec Ideal S1024x1024 .f32) (r : Fin 1024) :
    multiReduction (F := Ideal) .maximumf [1] S1024 src 0xFF800000#32 reduces_S1024x1024_S1024 (.inl rfl) rfl (ix1 r)
      = Cert.Spec.rowMax fun c : Fin 1024 => src (ix2 r c) := by
  refine (Ideal.multiReduction_maximumf_single src _ reduces_S1024x1024_S1024 _ _ (ix1 r)).trans ?_
  have e : (src ∘ reduces_S1024x1024_S1024.lift (ix1 r) : Fin 1024 → EReal) = fun c : Fin 1024 => src (ix2 r c) :=
    funext fun c => congrArg src (lift_row r c)
  have e0 : (FloatOps.ofBits (F := Ideal) .f32 0xFF800000#32 : EReal) = ⊥ := ofBits_neg_inf
  show (Finset.univ : Finset (Fin 1024)).fold max (FloatOps.ofBits (F := Ideal) .f32 0xFF800000#32 : EReal)
      (src ∘ reduces_S1024x1024_S1024.lift (ix1 r) : Fin 1024 → EReal) = _
  rw [e, e0]
  exact Cert.Lib.fold_max_bot_eq_sup _ _

theorem rowsum_apply (src : FVec Ideal S1024x1024 .f32) (r : Fin 1024) :
    multiReduction (F := Ideal) .add [1] S1024 src 0x00000000#32 reduces_S1024x1024_S1024 (.inl rfl) rfl (ix1 r)
      = ∑ c : Fin 1024, src (ix2 r c) :=
  (Ideal.multiReduction_add_single src _ reduces_S1024x1024_S1024 _ _ (ix1 r)).trans
    (Finset.sum_congr rfl fun c _ => congrArg src (lift_row r c))

section Head
variable (q k v : FVec Ideal S1024x64 .bf16) (msk : IVec S1024x1024 1) (m l : Vec Ideal S1024x1 .f32)
  (acc : Vec Ideal S1024x64 .f32) (r c : Fin 1024) (d : Fin 64)

theorem pay29_apply : Gen.k1_pay29 q k msk m (ix2 r 0)
    = max (m (ix2 r 0)) (Cert.Spec.rowMax fun c : Fin 1024 => Gen.k1_pay28 q k msk (ix2 r c)) := by
  simp only [Gen.k1_pay29]
  rw [maximumf_apply, shapeCast_a_a1_apply, rowmax_apply]

theorem pay31_apply : Gen.k1_pay31 q k msk m (ix2 r c)
    = Ideal.exp (Gen.k1_pay28 q k msk (ix2 r c) - Gen.k1_pay29 q k msk m (ix2 r 0)) := by
  simp only [Gen.k1_pay31]
  exact congrArg (fun x => Ideal.exp (_ - x)) (broadcastTo_a1_ab_apply _ _ r c)

theorem pay32_apply : Gen.k1_pay32 q k msk m l (ix2 r 0)
    = Ideal.exp (m (ix2 r 0) - Gen.k1_pay29 q k msk m (ix2 r 0)) * l (ix2 r 0) + ∑ c : Fin 1024, Gen.k1_pay31 q k msk m (ix2 r c) := by
  simp only [Gen.k1_pay32]
  rw [addf_apply, shapeCast_a_a1_apply, rowsum_apply]
  rfl

theorem pay8_apply (e : FVec Ideal S1024x1 .f32) (p : FVec Ideal S1024x1024 .f32) :
    Gen.k1_pay8 v e p acc (ix2 r d) = e (ix2 r 0) * acc (ix2 r d) + ∑ c : Fin 1024, p (ix2 r c) * v (ix2 c d) := by
  simp only [Gen.k1_pay8]
  rw [shapeCast_self, addf_apply, mulf_apply, broadcastTo_a1_ab_apply]
  exact congrArg (_ + ·) (matmul_plain_apply _ v r d)

-- One online-softmax update of a row's running maximum, normaliser and accumulator, for either head.
theorem head_step :
    ( Gen.k1_pay9 (Gen.k1_pay29 q k msk m) (ix2 r 0), Gen.k1_pay7 (Gen.k1_pay32 q k msk m l) (ix2 r 0),
      Gen.k1_pay8 v (Gen.k1_pay30 q k msk m) (Gen.k1_pay31 q k msk m) acc (ix2 r d) )
      = Cert.Spec.step (m (ix2 r 0), l (ix2 r 0), acc (ix2 r d)) (fun c => Gen.k1_pay28 q k msk (ix2 r c)) fun c => v (ix2 c d) := by
  simp only [Gen.k1_pay9, Gen.k1_pay7]
  rw [shapeCast_self, shapeCast_self, pay8_apply, pay32_apply]
  show (_, _, Ideal.exp (m (ix2 r 0) - Gen.k1_pay29 q k msk m (ix2 r 0)) * _ + _) = _
  simp only [pay31_apply, pay29_apply]
  rfl

end Head

theorem head0_step (a2 a3 : BitVec 32) (v12 v14 v16 : Vec Ideal S1x1024x128 .bf16) (m l : Vec Ideal S1024x1 .f32)
    (acc : Vec Ideal S1024x64 .f32) (r : Fin 1024) (d : Fin 64) :
    ( Gen.k1_pay27 (Gen.k1_pay20 a2 a3 v12 v14 m) (ix2 r 0),
      Gen.k1_pay25 (Gen.k1_pay23 a2 a3 v12 v14 m l) (Gen.k1_pay24 a2 a3 v12 v14 m) (ix2 r 0),
      Gen.k1_pay26 (Gen.k1_pay16 v16) (Gen.k1_pay21 a2 a3 v12 v14 m) (Gen.k1_pay22 a2 a3 v12 v14 m) acc (ix2 r d) )
      = Cert.Spec.step (m (ix2 r 0), l (ix2 r 0), acc (ix2 r d)) (fun c => Gen.k1_pay19 a2 a3 v12 v14 (ix2 r c))
          (fun c => v16 (ix3 0 c ⟨d.val, by omega⟩)) :=
  (head_step (Gen.k1_pay16 v12) (Gen.k1_pay16 v14) (Gen.k1_pay16 v16) (Gen.k1_pay18 a2 a3) m l acc r d).trans
    (congrArg (Cert.Spec.step _ _) (funext fun c => lo_apply v16 c d))

theorem head1_step (a2 a3 : BitVec 32) (v12 v14 v16 : Vec Ideal S1x1024x128 .bf16) (m l : Vec Ideal S1024x1 .f32)
    (acc : Vec Ideal S1024x64 .f32) (r : Fin 1024) (d : Fin 64) :
    ( Gen.k1_pay9 (Gen.k1_pay29 (Gen.k1_pay14 v12) (Gen.k1_pay15 v14) (Gen.k1_pay18 a2 a3) m) (ix2 r 0),
      Gen.k1_pay7 (Gen.k1_pay32 (Gen.k1_pay14 v12) (Gen.k1_pay15 v14) (Gen.k1_pay18 a2 a3) m l) (ix2 r 0),
      Gen.k1_pay8 (Gen.k1_pay17 v16) (Gen.k1_pay30 (Gen.k1_pay14 v12) (Gen.k1_pay15 v14) (Gen.k1_pay18 a2 a3) m)
        (Gen.k1_pay31 (Gen.k1_pay14 v12) (Gen.k1_pay15 v14) (Gen.k1_pay18 a2 a3) m) acc (ix2 r d) )
      = Cert.Spec.step (m (ix2 r 0), l (ix2 r 0), acc (ix2 r d))
          (fun c => Gen.k1_pay28 (Gen.k1_pay14 v12) (Gen.k1_pay15 v14) (Gen.k1_pay18 a2 a3) (ix2 r c))
          (fun c => v16 (ix3 0 c ⟨64 + d.val, by omega⟩)) :=
  (head_step _ _ _ _ m l acc r d).trans (congrArg (Cert.Spec.step _ _) (funext fun c => hi_apply v16 c d))

theorem concat_lanes_apply {α : Type} (x₁ x₂ : S1024x64.Idx → α) (r : Fin 1024) (l : Fin 128) :
    concatenate S1024x128 1 [⟨S1024x64, x₁⟩, ⟨S1024x64, x₂⟩] concatenates_S1024x64_S1024x64_S1024x128_d1 (ix2 r l)
      = if h : l.val < 64 then x₁ (ix2 r ⟨l.val, h⟩) else x₂ (ix2 r ⟨l.val - 64, by omega⟩) := by
  by_cases h : l.val < 64
  · rw [dif_pos h]
    exact concatenate_pair_apply_left (t := S1024x128) (s₁ := S1024x64) (s₂ := S1024x64) (1 : Fin 2) x₁ x₂
      concatenates_S1024x64_S1024x64_S1024x128_d1 (ix2 r l) rfl
      (ix2 r ⟨l.val, h⟩) (fun b => by match b with | ⟨0, _⟩ => rfl | ⟨1, _⟩ => rfl)
  · rw [dif_neg h]
    exact concatenate_pair_apply_right (t := S1024x128) (s₁ := S1024x64) (s₂ := S1024x64) (1 : Fin 2) x₁ x₂
      concatenates_S1024x64_S1024x64_S1024x128_d1 (ix2 r l) rfl rfl
      (ix2 r ⟨l.val - 64, by omega⟩) (fun b hb => by
        match b with
        | ⟨0, _⟩ => rfl
        | ⟨1, _⟩ => exact absurd rfl hb) (by show l.val - 64 + 64 = l.val; omega)

theorem pay10_apply (v12 : Vec Ideal S1024x64 .f32) (v13 : Vec Ideal S1024x1 .f32) (v16 : Vec Ideal S1024x64 .f32)
    (v17 : Vec Ideal S1024x1 .f32) (r : Fin 1024) (l : Fin 128) :
    Gen.k1_pay10 v12 v13 v16 v17 (ix3 0 r l)
      = if h : l.val < 64 then Ideal.div (v12 (ix2 r ⟨l.val, h⟩)) (v13 (ix2 r 0))
        else Ideal.div (v16 (ix2 r ⟨l.val - 64, by omega⟩)) (v17 (ix2 r 0)) := by
  simp only [Gen.k1_pay10]
  rw [shapeCast_ab_1ab_apply, truncf_apply, concat_lanes_apply]
  by_cases h : l.val < 64
  · rw [dif_pos h, dif_pos h, divf_apply, broadcastTo_a1_ab_apply]
  · rw [dif_neg h, dif_neg h, divf_apply, broadcastTo_a1_ab_apply]

theorem pay1_apply (r : Fin 1024) : (Gen.k1_pay1 (F := Ideal)) (ix2 r 0) = ⊥ := by
  simp only [Gen.k1_pay1]
  rw [shapeCast_self, broadcast_apply]
  exact ofBits_neg_inf
theorem pay4_apply (r : Fin 1024) : (Gen.k1_pay4 (F := Ideal)) (ix2 r 0) = ⊥ := pay1_apply r

-- The zero splat under an identity cast.
theorem zero_apply {s : Shape} (h : s.ShapeCasts s) (i : s.Idx) :
    shapeCast s (broadcast s (Scalar.ofBits (F := Ideal) .f32 0x00000000#32)) h i = 0 := by
  rw [shapeCast_self, broadcast_apply]
  exact Ideal.ofBits_zero_f32
theorem pay2_apply (r : Fin 1024) : (Gen.k1_pay2 (F := Ideal)) (ix2 r 0) = 0 := zero_apply _ _
theorem pay3_apply (r : Fin 1024) (d : Fin 64) : (Gen.k1_pay3 (F := Ideal)) (ix2 r d) = 0 := zero_apply _ _
theorem pay5_apply (r : Fin 1024) : (Gen.k1_pay5 (F := Ideal)) (ix2 r 0) = 0 := zero_apply _ _
theorem pay6_apply (r : Fin 1024) (d : Fin 64) : (Gen.k1_pay6 (F := Ideal)) (ix2 r d) = 0 := zero_apply _ _

end Cert.KernelIdeal.Hand

end
-- ==== Proof.R1Cover.lean ====
import proofs.«410688_j9775345566104_3_alg».proof.Proof.Gen.KernelIdeal.Launch
import proofs.«410688_j9775345566104_3_alg».proof.Proof.Gen.KernelIdeal.Points
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

theorem t1_lt (t : Fin cfg1.N) : t.val < 64 := by
  have h : t.val < grid1.N := t.isLt
  rw [N_1] at h; exact h

-- The block indices of the four windows at a grid point, decided over the 64 points.
theorem idx_attn1 : ∀ t : Fin cfg1.N,
    (win1_0.index t (0 : Fin 3) = t.val / 32 ∧ win1_0.index t (1 : Fin 3) = t.val / 2 % 2 ∧ win1_0.index t (2 : Fin 3) = t.val / 4 % 8)
    ∧ (win1_1.index t (0 : Fin 3) = t.val / 32 ∧ win1_1.index t (1 : Fin 3) = min (t.val % 2) (t.val / 2 % 2) ∧ win1_1.index t (2 : Fin 3) = 8 + t.val / 4 % 8)
    ∧ (win1_2.index t (0 : Fin 3) = t.val / 32 ∧ win1_2.index t (1 : Fin 3) = min (t.val % 2) (t.val / 2 % 2) ∧ win1_2.index t (2 : Fin 3) = 16 + t.val / 4 % 8)
    ∧ (win1_3.index t (0 : Fin 3) = t.val / 32 ∧ win1_3.index t (1 : Fin 3) = t.val / 2 % 2 ∧ win1_3.index t (2 : Fin 3) = t.val / 4 % 8) :=
  (by decide +kernel : ∀ t : Fin grid1.N, _)

theorem idx3_ext {n0 n1 n2 : Nat} (i i' : (⟨3, ![n0, n1, n2]⟩ : Shape).Idx)
    (h0 : (i 0).val = (i' 0).val) (h1 : (i 1).val = (i' 1).val) (h2 : (i 2).val = (i' 2).val) : i = i' :=
  funext fun a => Fin.ext (by
    match a with
    | ⟨0, _⟩ => exact h0
    | ⟨1, _⟩ => exact h1
    | ⟨2, _⟩ => exact h2)

-- Element (0, r, l) of the block with block indices I, read in an array at the index with the same three coordinates.
theorem read_of {n0 n1 n2 : ℕ} (A : (⟨3, ![n0, n1, n2]⟩ : Shape).Idx → EReal) (j i : (⟨3, ![n0, n1, n2]⟩ : Shape).Idx) (I : Fin 3 → ℕ)
    (r : Fin 1024) (l : Fin 128) (j0 : (j 0).val = I 0 * 1 + 1 * 0) (j1 : (j 1).val = I 1 * 1024 + 1 * r.val)
    (j2 : (j 2).val = I 2 * 128 + 1 * l.val) (a b c : ℕ) (e0 : I 0 = a) (e1 : I 1 = b) (e2 : I 2 = c)
    (h0 : (i 0).val = a) (h1 : (i 1).val = b * 1024 + r.val) (h2 : (i 2).val = c * 128 + l.val) : A j = A i := by
  subst e0 e1 e2
  exact congrArg A (idx3_ext j i (by omega) (by omega) (by omega))

theorem blk1_0_read_of (A : S2x2048x3072.Idx → EReal) (t : Fin cfg1.N) (r : Fin 1024) (l : Fin 128) (i : S2x2048x3072.Idx)
    (h0 : (i 0).val = t.val / 32) (h1 : (i 1).val = (t.val / 2 % 2) * 1024 + r.val) (h2 : (i 2).val = (t.val / 4 % 8) * 128 + l.val) :
    ((cfg1.win 0).blk t).view.read (Elt Ideal) A (ix3 (0 : Fin 1) r l) = A i := by
  obtain ⟨⟨e0, e1, e2⟩, -, -, -⟩ := idx_attn1 t
  exact read_of A (((cfg1.win 0).blk t).view.emb (ix3 (0 : Fin 1) r l)) i (win1_0.index t) r l rfl rfl rfl _ _ _ e0 e1 e2 h0 h1 h2

theorem blk1_1_read_of (A : S2x2048x3072.Idx → EReal) (t : Fin cfg1.N) (r : Fin 1024) (l : Fin 128) (i : S2x2048x3072.Idx)
    (h0 : (i 0).val = t.val / 32) (h1 : (i 1).val = min (t.val % 2) (t.val / 2 % 2) * 1024 + r.val) (h2 : (i 2).val = (8 + t.val / 4 % 8) * 128 + l.val) :
    ((cfg1.win 1).blk t).view.read (Elt Ideal) A (ix3 (0 : Fin 1) r l) = A i := by
  obtain ⟨-, ⟨e0, e1, e2⟩, -, -⟩ := idx_attn1 t
  exact read_of A (((cfg1.win 1).blk t).view.emb (ix3 (0 : Fin 1) r l)) i (win1_1.index t) r l rfl rfl rfl _ _ _ e0 e1 e2 h0 h1 h2

theorem blk1_2_read_of (A : S2x2048x3072.Idx → EReal) (t : Fin cfg1.N) (r : Fin 1024) (l : Fin 128) (i : S2x2048x3072.Idx)
    (h0 : (i 0).val = t.val / 32) (h1 : (i 1).val = min (t.val % 2) (t.val / 2 % 2) * 1024 + r.val) (h2 : (i 2).val = (16 + t.val / 4 % 8) * 128 + l.val) :
    ((cfg1.win 2).blk t).view.read (Elt Ideal) A (ix3 (0 : Fin 1) r l) = A i := by
  obtain ⟨-, -, ⟨e0, e1, e2⟩, -⟩ := idx_attn1 t
  exact read_of A (((cfg1.win 2).blk t).view.emb (ix3 (0 : Fin 1) r l)) i (win1_2.index t) r l rfl rfl rfl _ _ _ e0 e1 e2 h0 h1 h2

theorem blk1_3_read (G : S2x2048x1024.Idx → EReal) (t : Fin cfg1.N) (r : Fin 1024) (l : Fin 128) :
    ((cfg1.win 3).blk t).view.read (Elt Ideal) G (ix3 (0 : Fin 1) r l)
      = G (ix3 (⟨t.val / 32, by have := t1_lt t; omega⟩ : Fin 2) (⟨(t.val / 2 % 2) * 1024 + r.val, by omega⟩ : Fin 2048)
          (⟨(t.val / 4 % 8) * 128 + l.val, by omega⟩ : Fin 1024)) := by
  obtain ⟨-, -, -, ⟨e0, e1, e2⟩⟩ := idx_attn1 t
  exact read_of G (((cfg1.win 3).blk t).view.emb (ix3 (0 : Fin 1) r l)) _ (win1_3.index t) r l rfl rfl rfl _ _ _ e0 e1 e2 rfl rfl rfl

-- Every element of the output lies in the block of an odd grid point computed from its three coordinates.
theorem cover1_3 (i : S2x2048x1024.Idx) :
    ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  have hN : (((i 0).val * 8 + (i 2).val / 128) * 2 + (i 1).val / 1024) * 2 + 1 < cfg1.N := by
    show _ < grid1.N
    rw [N_1]; omega
  obtain ⟨t, ht⟩ : ∃ t : Fin cfg1.N, t.val = (((i 0).val * 8 + (i 2).val / 128) * 2 + (i 1).val / 1024) * 2 + 1 := ⟨⟨_, hN⟩, rfl⟩
  obtain ⟨-, -, -, ⟨e0, e1, e2⟩⟩ := idx_attn1 t
  refine ⟨t, (flush1_3 t).mpr (by omega), ?_⟩
  show i ∈ ((View.whole main_v11).slice (win1_3.rect t)).set
  rw [View.set_slice_whole, Rect.mem_set_unit]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 128 ≤ (i 2).val ∧ (i 2).val < win1_3.index t (2 : Fin 3) * 128 + 128
    omega

theorem arrAt1_3_of_flushed {c : Dev nD} (dat : Dat τ (Elt Ideal) Unit ℕ (UR sig nD τ) ℕ cfg1 c) (G : S2x2048x1024.Idx → EReal)
    (hfl : ∀ t : Fin cfg1.N, t.val % 2 = 1 → dat.flushed 3 t = ((cfg1.win 3).blk t).view.read (Elt Ideal) G) :
    dat.arrAt 3 cfg1.N = G :=
  dat.arrAt_eq_of_cover 3 G (fun t hf => hfl t ((flush1_3 t).mp hf)) cover1_3

end Cert.KernelIdeal.Hand

end
-- ==== Proof.R1Rows.lean ====
import proofs.«410688_j9775345566104_3_alg».proof.Proof.Spec
import Idealize.ShloMosaic.Lib.ValueIdx

noncomputable section

namespace Cert.KernelIdeal.Hand

open Idealize.ShloMosaic Idealize.ShloMosaic.ValueIdx
open scoped BigOperators

theorem hd_dd_lo (hp : ℕ) (hhp : hp < 8) (j : Fin 1024) (l : ℕ) (hj : j.val = hp * 128 + l) (hl : l < 64) :
    (Cert.Spec.hd j).val = 2 * hp ∧ (Cert.Spec.dd j).val = l := by
  refine ⟨?_, ?_⟩
  · show j.val / 64 = 2 * hp; omega
  · show j.val % 64 = l; omega

theorem hd_dd_hi (hp : ℕ) (hhp : hp < 8) (j : Fin 1024) (l : ℕ) (hj : j.val = hp * 128 + l) (hl : 64 ≤ l) (hl2 : l < 128) :
    (Cert.Spec.hd j).val = 2 * hp + 1 ∧ (Cert.Spec.dd j).val = l - 64 := by
  refine ⟨?_, ?_⟩
  · show j.val / 64 = 2 * hp + 1; omega
  · show j.val % 64 = l - 64; omega

section Tile
variable (qkv : Fin 2048 → Fin 3072 → EReal) (hp qi ki : ℕ)
variable (x0 x1 x2 : (⟨3, ![1, 1024, 128]⟩ : Shape).Idx → EReal)

variable (hq : ∀ (r : Fin 1024) (l : Fin 128) (s : Fin 2048) (n : Fin 3072), s.val = qi * 1024 + r.val → n.val = hp * 128 + l.val → x0 (ix3 (0 : Fin 1) r l) = qkv s n)
variable (hk : ∀ (c : Fin 1024) (l : Fin 128) (s : Fin 2048) (n : Fin 3072), s.val = ki * 1024 + c.val → n.val = (8 + hp) * 128 + l.val → x1 (ix3 (0 : Fin 1) c l) = qkv s n)
variable (hv : ∀ (c : Fin 1024) (l : Fin 128) (s : Fin 2048) (n : Fin 3072), s.val = ki * 1024 + c.val → n.val = (16 + hp) * 128 + l.val → x2 (ix3 (0 : Fin 1) c l) = qkv s n)

include hq hk in
-- Head h's columns of the fused projection sit at lanes e of block hp; the block's keys are rows κ of the sequence.
theorem scores_tile (e : Fin 64 → Fin 128) (κ : Fin 1024 → Fin 2048) (hκ : ∀ c, (κ c).val = ki * 1024 + c.val) (r : Fin 1024)
    (h : Fin 16) (he : ∀ d : Fin 64, h.val * 64 + d.val = hp * 128 + (e d).val) (s : Fin 2048) (hs : s.val = qi * 1024 + r.val) :
    (fun c : Fin 1024 => if ki * 1024 + c.val ≤ qi * 1024 + r.val
        then Cert.Spec.scaleK (∑ d : Fin 64, x0 (ix3 (0 : Fin 1) r (e d)) * x1 (ix3 (0 : Fin 1) c (e d))) else ⊥)
      = fun c => Cert.Spec.scoresK qkv h s (κ c) := by
  funext c
  refine if_congr (by rw [hκ, hs]) (congrArg Cert.Spec.scaleK (Finset.sum_congr rfl fun d _ => ?_)) rfl
  rw [hq r _ s (Cert.Spec.qcol h d) hs (he d),
    hk c _ (κ c) (Cert.Spec.kcol h d) (hκ c) (by show 1024 + (h.val * 64 + d.val) = _; rw [he d]; omega)]

include hq hk in
theorem scores_h0_lo (hki : ki = 0) (r : Fin 1024) (h : Fin 16) (hh : h.val = 2 * hp) (s : Fin 2048) (hs : s.val = qi * 1024 + r.val) :
    (fun c : Fin 1024 => if ki * 1024 + c.val ≤ qi * 1024 + r.val
        then Cert.Spec.scaleK (∑ d : Fin 64, x0 (ix3 (0 : Fin 1) r ⟨d.val, by omega⟩) * x1 (ix3 (0 : Fin 1) c ⟨d.val, by omega⟩)) else ⊥)
      = Cert.Spec.lo (Cert.Spec.scoresK qkv h s) :=
  scores_tile qkv hp qi ki x0 x1 hq hk _ _ (fun c => by subst hki; exact (Nat.zero_add _).symm) r h (fun d => by show _ = _ + d.val; omega) s hs

include hq hk in
theorem scores_h0_hi (hki : ki = 1) (r : Fin 1024) (h : Fin 16) (hh : h.val = 2 * hp) (s : Fin 2048) (hs : s.val = qi * 1024 + r.val) :
    (fun c : Fin 1024 => if ki * 1024 + c.val ≤ qi * 1024 + r.val
        then Cert.Spec.scaleK (∑ d : Fin 64, x0 (ix3 (0 : Fin 1) r ⟨d.val, by omega⟩) * x1 (ix3 (0 : Fin 1) c ⟨d.val, by omega⟩)) else ⊥)
      = Cert.Spec.hi (Cert.Spec.scoresK qkv h s) :=
  scores_tile qkv hp qi ki x0 x1 hq hk _ _ (fun c => by subst hki; exact congrArg (· + c.val) (Nat.one_mul _).symm) r h (fun d => by show _ = _ + d.val; omega) s hs

include hq hk in
theorem scores_h1_lo (hki : ki = 0) (r : Fin 1024) (h : Fin 16) (hh : h.val = 2 * hp + 1) (s : Fin 2048) (hs : s.val = qi * 1024 + r.val) :
    (fun c : Fin 1024 => if ki * 1024 + c.val ≤ qi * 1024 + r.val
        then Cert.Spec.scaleK (∑ d : Fin 64, x0 (ix3 (0 : Fin 1) r ⟨64 + d.val, by omega⟩) * x1 (ix3 (0 : Fin 1) c ⟨64 + d.val, by omega⟩)) else ⊥)
      = Cert.Spec.lo (Cert.Spec.scoresK qkv h s) :=
  scores_tile qkv hp qi ki x0 x1 hq hk _ _ (fun c => by subst hki; exact (Nat.zero_add _).symm) r h (fun d => by show _ = _ + (64 + d.val); omega) s hs

include hq hk in
theorem scores_h1_hi (hki : ki = 1) (r : Fin 1024) (h : Fin 16) (hh : h.val = 2 * hp + 1) (s : Fin 2048) (hs : s.val = qi * 1024 + r.val) :
    (fun c : Fin 1024 => if ki * 1024 + c.val ≤ qi * 1024 + r.val
        then Cert.Spec.scaleK (∑ d : Fin 64, x0 (ix3 (0 : Fin 1) r ⟨64 + d.val, by omega⟩) * x1 (ix3 (0 : Fin 1) c ⟨64 + d.val, by omega⟩)) else ⊥)
      = Cert.Spec.hi (Cert.Spec.scoresK qkv h s) :=
  scores_tile qkv hp qi ki x0 x1 hq hk _ _ (fun c => by subst hki; exact congrArg (· + c.val) (Nat.one_mul _).symm) r h (fun d => by show _ = _ + (64 + d.val); omega) s hs

include hv in
-- Lane l of block 16 + hp is value column dj of head h, read down the block's rows κ.
theorem vals_tile (l : Fin 128) (κ : Fin 1024 → Fin 2048) (hκ : ∀ c, (κ c).val = ki * 1024 + c.val) (h : Fin 16) (dj : Fin 64)
    (hl : h.val * 64 + dj.val = hp * 128 + l.val) :
    (fun c : Fin 1024 => x2 (ix3 (0 : Fin 1) c l)) = fun c => qkv (κ c) (Cert.Spec.vcol h dj) :=
  funext fun c => hv c l (κ c) _ (hκ c) (by show 2048 + (h.val * 64 + dj.val) = _; rw [hl]; omega)

include hv in
theorem vals_h0_lo (hki : ki = 0) (d : Fin 64) (h : Fin 16) (hh : h.val = 2 * hp) (dj : Fin 64) (hdj : dj.val = d.val) :
    (fun c : Fin 1024 => x2 (ix3 (0 : Fin 1) c ⟨d.val, by omega⟩))
      = Cert.Spec.lo (fun k' => qkv k' (Cert.Spec.vcol h dj)) :=
  vals_tile qkv hp ki x2 hv _ _ (fun c => by subst hki; exact (Nat.zero_add _).symm) h dj (by show _ = _ + d.val; omega)

include hv in
theorem vals_h0_hi (hki : ki = 1) (d : Fin 64) (h : Fin 16) (hh : h.val = 2 * hp) (dj : Fin 64) (hdj : dj.val = d.val) :
    (fun c : Fin 1024 => x2 (ix3 (0 : Fin 1) c ⟨d.val, by omega⟩))
      = Cert.Spec.hi (fun k' => qkv k' (Cert.Spec.vcol h dj)) :=
  vals_tile qkv hp ki x2 hv _ _ (fun c => by subst hki; exact congrArg (· + c.val) (Nat.one_mul _).symm) h dj (by show _ = _ + d.val; omega)

include hv in
theorem vals_h1_lo (hki : ki = 0) (d : Fin 64) (h : Fin 16) (hh : h.val = 2 * hp + 1) (dj : Fin 64) (hdj : dj.val = d.val) :
    (fun c : Fin 1024 => x2 (ix3 (0 : Fin 1) c ⟨64 + d.val, by omega⟩))
      = Cert.Spec.lo (fun k' => qkv k' (Cert.Spec.vcol h dj)) :=
  vals_tile qkv hp ki x2 hv _ _ (fun c => by subst hki; exact (Nat.zero_add _).symm) h dj (by show _ = _ + (64 + d.val); omega)

include hv in
theorem vals_h1_hi (hki : ki = 1) (d : Fin 64) (h : Fin 16) (hh : h.val = 2 * hp + 1) (dj : Fin 64) (hdj : dj.val = d.val) :
    (fun c : Fin 1024 => x2 (ix3 (0 : Fin 1) c ⟨64 + d.val, by omega⟩))
      = Cert.Spec.hi (fun k' => qkv k' (Cert.Spec.vcol h dj)) :=
  vals_tile qkv hp ki x2 hv _ _ (fun c => by subst hki; exact congrArg (· + c.val) (Nat.one_mul _).symm) h dj (by show _ = _ + (64 + d.val); omega)

end Tile

end Cert.KernelIdeal.Hand

end
-- ==== Proof.R1Val.lean ====
import proofs.«410688_j9775345566104_3_alg».proof.Proof.R1
import proofs.«410688_j9775345566104_3_alg».proof.Proof.R1Pieces
import proofs.«410688_j9775345566104_3_alg».proof.Proof.R1Pay
import proofs.«410688_j9775345566104_3_alg».proof.Proof.R1Cover
import proofs.«410688_j9775345566104_3_alg».proof.Proof.R1Rows
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

section Generic
variable {F : FTy → Type} [FloatOps F] [Named F]

variable (V : (c : Dev nD) → (b : Ref sig .tc) → Buf (Elt F) ((c : Thread nD τ).loc b))

abbrev qblk (c : Dev nD) (t : Fin cfg1.N) : Vec F S1x1024x128 .bf16 := iblk1 V c 0 t
abbrev kblk (c : Dev nD) (t : Fin cfg1.N) : Vec F S1x1024x128 .bf16 := iblk1 V c 1 t
abbrev vblk (c : Dev nD) (t : Fin cfg1.N) : Vec F S1x1024x128 .bf16 := iblk1 V c 2 t

def prev1 (t : Fin cfg1.N) : Fin cfg1.N := ⟨t.val - 1, Nat.lt_of_le_of_lt (Nat.sub_le _ _) t.isLt⟩

theorem prev1_val (t : Fin cfg1.N) : (prev1 t).val = t.val - 1 := rfl

/-- After a point whose key tile is the first, the scratch buffers hold one step from the reset values on that point's blocks. -/
theorem scrA (c : Dev nD) (u : Fin cfg1.N) (hu : u.val % 2 = 0) :
    (outsAt1 V c u.val u.isLt).2 =
      (upd1_0 (grid1.coords u) (qblk V c u) (kblk V c u) k1_pay1,
       upd1_1 (grid1.coords u) (qblk V c u) (kblk V c u) k1_pay1 k1_pay2,
       upd1_2 (grid1.coords u) (qblk V c u) (kblk V c u) (vblk V c u) k1_pay1 k1_pay3,
       upd1_3 (grid1.coords u) (qblk V c u) (kblk V c u) k1_pay4,
       upd1_4 (grid1.coords u) (qblk V c u) (kblk V c u) k1_pay4 k1_pay5,
       upd1_5 (grid1.coords u) (qblk V c u) (kblk V c u) (vblk V c u) k1_pay4 k1_pay6) := by
  rw [outsAt1_A V c u hu]
  exact pieces1_A c (grid1.coords u) (ms1_0 u) (hs1_0 u) (ms1_1 u) (hs1_1 u) (ms1_2 u) (hs1_2 u) (ms1_3 u) (hs1_3 u) scM1_0 (Memref.isWhole_whole _) scM1_1 (Memref.isWhole_whole _) scM1_2 (Memref.isWhole_whole _) scM1_3 (Memref.isWhole_whole _) scM1_4 (Memref.isWhole_whole _) scM1_5 (Memref.isWhole_whole _) (iblk1 V c 0 u) (iblk1 V c 1 u) (iblk1 V c 2 u) ((hcond1_0 u).mpr hu) (caseA_c1 u hu) (caseA_c2 u hu)

theorem scrA' (c : Dev nD) (t : Fin cfg1.N) (h0 : ¬t.val % 2 = 0) :
    (outsAt1 V c (t.val - 1) (Nat.lt_of_le_of_lt (Nat.sub_le _ _) t.isLt)).2 =
      (upd1_0 (grid1.coords (prev1 t)) (qblk V c (prev1 t)) (kblk V c (prev1 t)) k1_pay1,
       upd1_1 (grid1.coords (prev1 t)) (qblk V c (prev1 t)) (kblk V c (prev1 t)) k1_pay1 k1_pay2,
       upd1_2 (grid1.coords (prev1 t)) (qblk V c (prev1 t)) (kblk V c (prev1 t)) (vblk V c (prev1 t)) k1_pay1 k1_pay3,
       upd1_3 (grid1.coords (prev1 t)) (qblk V c (prev1 t)) (kblk V c (prev1 t)) k1_pay4,
       upd1_4 (grid1.coords (prev1 t)) (qblk V c (prev1 t)) (kblk V c (prev1 t)) k1_pay4 k1_pay5,
       upd1_5 (grid1.coords (prev1 t)) (qblk V c (prev1 t)) (kblk V c (prev1 t)) (vblk V c (prev1 t)) k1_pay4 k1_pay6) :=
  scrA V c (prev1 t) (by show (t.val - 1) % 2 = 0; omega)

/-- A finalizing point that takes no step: the output block is the finalization of what the point before left. -/
theorem outB' (c : Dev nD) (t : Fin cfg1.N) (h0 : ¬t.val % 2 = 0) (h1 : ¬t.val % 4 = 3) :
    (outsAt1 V c t.val t.isLt).1 =
      k1_pay10 (upd1_2 (grid1.coords (prev1 t)) (qblk V c (prev1 t)) (kblk V c (prev1 t)) (vblk V c (prev1 t)) k1_pay1 k1_pay3)
        (upd1_1 (grid1.coords (prev1 t)) (qblk V c (prev1 t)) (kblk V c (prev1 t)) k1_pay1 k1_pay2)
        (upd1_5 (grid1.coords (prev1 t)) (qblk V c (prev1 t)) (kblk V c (prev1 t)) (vblk V c (prev1 t)) k1_pay4 k1_pay6)
        (upd1_4 (grid1.coords (prev1 t)) (qblk V c (prev1 t)) (kblk V c (prev1 t)) k1_pay4 k1_pay5) := by
  rw [outsAt1_B V c t h0 h1]
  unfold stB runB; dsimp only
  rw [piece1_B_out3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (iblk1 V c 0 t) (iblk1 V c 1 t) (iblk1 V c 2 t), scrA' V c t h0]

/-- A finalizing point that takes a step: the finalization of one more step over what the point before left. -/
theorem outC' (c : Dev nD) (t : Fin cfg1.N) (h0 : ¬t.val % 2 = 0) (h1 : t.val % 4 = 3) :
    (outsAt1 V c t.val t.isLt).1 =
      k1_pay10
        (upd1_2 (grid1.coords t) (qblk V c t) (kblk V c t) (vblk V c t)
          (upd1_0 (grid1.coords (prev1 t)) (qblk V c (prev1 t)) (kblk V c (prev1 t)) k1_pay1)
          (upd1_2 (grid1.coords (prev1 t)) (qblk V c (prev1 t)) (kblk V c (prev1 t)) (vblk V c (prev1 t)) k1_pay1 k1_pay3))
        (upd1_1 (grid1.coords t) (qblk V c t) (kblk V c t)
          (upd1_0 (grid1.coords (prev1 t)) (qblk V c (prev1 t)) (kblk V c (prev1 t)) k1_pay1)
          (upd1_1 (grid1.coords (prev1 t)) (qblk V c (prev1 t)) (kblk V c (prev1 t)) k1_pay1 k1_pay2))
        (upd1_5 (grid1.coords t) (qblk V c t) (kblk V c t) (vblk V c t)
          (upd1_3 (grid1.coords (prev1 t)) (qblk V c (prev1 t)) (kblk V c (prev1 t)) k1_pay4)
          (upd1_5 (grid1.coords (prev1 t)) (qblk V c (prev1 t)) (kblk V c (prev1 t)) (vblk V c (prev1 t)) k1_pay4 k1_pay6))
        (upd1_4 (grid1.coords t) (qblk V c t) (kblk V c t)
          (upd1_3 (grid1.coords (prev1 t)) (qblk V c (prev1 t)) (kblk V c (prev1 t)) k1_pay4)
          (upd1_4 (grid1.coords (prev1 t)) (qblk V c (prev1 t)) (kblk V c (prev1 t)) k1_pay4 k1_pay5)) := by
  rw [outsAt1_C V c t h0 h1]
  unfold stC runC; dsimp only
  rw [piece1_C_out3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) scM1_4 (Memref.isWhole_whole _) scM1_5 (Memref.isWhole_whole _) (iblk1 V c 0 t) (iblk1 V c 1 t) (iblk1 V c 2 t), scrA' V c t h0]

end Generic

theorem head0_next (i : grid1.Coords) (qi ki : ℕ) (hqi : qi < 2) (hki : ki < 2) (hi2 : (i 2).val = qi) (hi3 : (i 3).val = ki)
    (x0 x1 x2 : Vec Ideal S1x1024x128 .bf16) (m l : Vec Ideal S1024x1 .f32) (acc : Vec Ideal S1024x64 .f32) (r : Fin 1024) (d : Fin 64) :
    (upd1_0 i x0 x1 m (ix2 r 0), upd1_1 i x0 x1 m l (ix2 r 0), upd1_2 i x0 x1 x2 m acc (ix2 r d))
      = Cert.Spec.step (m (ix2 r 0), l (ix2 r 0), acc (ix2 r d))
          (fun c : Fin 1024 => if ki * 1024 + c.val ≤ qi * 1024 + r.val then Cert.Spec.scaleK (∑ d : Fin 64, x0 (ix3 (0 : Fin 1) r ⟨d.val, by have := d.isLt; omega⟩) * x1 (ix3 (0 : Fin 1) c ⟨d.val, by have := d.isLt; omega⟩)) else ⊥)
          (fun c : Fin 1024 => x2 (ix3 (0 : Fin 1) c ⟨d.val, by have := d.isLt; omega⟩)) := by
  unfold upd1_0 upd1_1 upd1_2
  rw [hi2, hi3, head0_step]
  exact congrArg (fun sc => Cert.Spec.step _ sc _) (funext fun c => pay19_apply qi ki hqi hki x0 x1 r c)

theorem head1_next (i : grid1.Coords) (qi ki : ℕ) (hqi : qi < 2) (hki : ki < 2) (hi2 : (i 2).val = qi) (hi3 : (i 3).val = ki)
    (x0 x1 x2 : Vec Ideal S1x1024x128 .bf16) (m l : Vec Ideal S1024x1 .f32) (acc : Vec Ideal S1024x64 .f32) (r : Fin 1024) (d : Fin 64) :
    (upd1_3 i x0 x1 m (ix2 r 0), upd1_4 i x0 x1 m l (ix2 r 0), upd1_5 i x0 x1 x2 m acc (ix2 r d))
      = Cert.Spec.step (m (ix2 r 0), l (ix2 r 0), acc (ix2 r d))
          (fun c : Fin 1024 => if ki * 1024 + c.val ≤ qi * 1024 + r.val then Cert.Spec.scaleK (∑ d : Fin 64, x0 (ix3 (0 : Fin 1) r ⟨64 + d.val, by have := d.isLt; omega⟩) * x1 (ix3 (0 : Fin 1) c ⟨64 + d.val, by have := d.isLt; omega⟩)) else ⊥)
          (fun c : Fin 1024 => x2 (ix3 (0 : Fin 1) c ⟨64 + d.val, by have := d.isLt; omega⟩)) := by
  unfold upd1_3 upd1_4 upd1_5
  rw [hi2, hi3, head1_step]
  exact congrArg (fun sc => Cert.Spec.step _ sc _) (funext fun c => pay28_apply qi ki hqi hki x0 x1 r c)

theorem head0_first (i : grid1.Coords) (qi : ℕ) (hqi : qi < 2) (hi2 : (i 2).val = qi) (hi3 : (i 3).val = 0)
    (x0 x1 x2 : Vec Ideal S1x1024x128 .bf16) (r : Fin 1024) (d : Fin 64) :
    (upd1_0 i x0 x1 (k1_pay1 (F := Ideal)) (ix2 r 0), upd1_1 i x0 x1 (k1_pay1 (F := Ideal)) (k1_pay2 (F := Ideal)) (ix2 r 0), upd1_2 i x0 x1 x2 (k1_pay1 (F := Ideal)) (k1_pay3 (F := Ideal)) (ix2 r d))
      = Cert.Spec.step Cert.Spec.init
          (fun c : Fin 1024 => if 0 * 1024 + c.val ≤ qi * 1024 + r.val then Cert.Spec.scaleK (∑ d : Fin 64, x0 (ix3 (0 : Fin 1) r ⟨d.val, by have := d.isLt; omega⟩) * x1 (ix3 (0 : Fin 1) c ⟨d.val, by have := d.isLt; omega⟩)) else ⊥)
          (fun c : Fin 1024 => x2 (ix3 (0 : Fin 1) c ⟨d.val, by have := d.isLt; omega⟩)) := by
  have h := head0_next i qi 0 hqi (by decide) hi2 hi3 x0 x1 x2 (k1_pay1 (F := Ideal)) (k1_pay2 (F := Ideal)) (k1_pay3 (F := Ideal)) r d
  rw [pay1_apply, pay2_apply, pay3_apply] at h
  exact h

theorem head1_first (i : grid1.Coords) (qi : ℕ) (hqi : qi < 2) (hi2 : (i 2).val = qi) (hi3 : (i 3).val = 0)
    (x0 x1 x2 : Vec Ideal S1x1024x128 .bf16) (r : Fin 1024) (d : Fin 64) :
    (upd1_3 i x0 x1 (k1_pay4 (F := Ideal)) (ix2 r 0), upd1_4 i x0 x1 (k1_pay4 (F := Ideal)) (k1_pay5 (F := Ideal)) (ix2 r 0), upd1_5 i x0 x1 x2 (k1_pay4 (F := Ideal)) (k1_pay6 (F := Ideal)) (ix2 r d))
      = Cert.Spec.step Cert.Spec.init
          (fun c : Fin 1024 => if 0 * 1024 + c.val ≤ qi * 1024 + r.val then Cert.Spec.scaleK (∑ d : Fin 64, x0 (ix3 (0 : Fin 1) r ⟨64 + d.val, by have := d.isLt; omega⟩) * x1 (ix3 (0 : Fin 1) c ⟨64 + d.val, by have := d.isLt; omega⟩)) else ⊥)
          (fun c : Fin 1024 => x2 (ix3 (0 : Fin 1) c ⟨64 + d.val, by have := d.isLt; omega⟩)) := by
  have h := head1_next i qi 0 hqi (by decide) hi2 hi3 x0 x1 x2 (k1_pay4 (F := Ideal)) (k1_pay5 (F := Ideal)) (k1_pay6 (F := Ideal)) r d
  rw [pay4_apply, pay5_apply, pay6_apply] at h
  exact h

/-- The block `x` holds rows `tl * 1024 ..` and lanes `ch * 128 ..` of one batch's fused projection matrix. -/
def IsBlock (qkv : Fin 2048 → Fin 3072 → EReal) (x : Vec Ideal S1x1024x128 .bf16) (tl ch : ℕ) : Prop :=
  ∀ (r : Fin 1024) (l : Fin 128) (s : Fin 2048) (n : Fin 3072), s.val = tl * 1024 + r.val → n.val = ch * 128 + l.val → x (ix3 (0 : Fin 1) r l) = qkv s n

theorem rowB_core (qkv : Fin 2048 → Fin 3072 → EReal) (i : grid1.Coords) (hp : ℕ) (hhp : hp < 8)
    (hi2 : (i 2).val = 0) (hi3 : (i 3).val = 0) (x0 x1 x2 : Vec Ideal S1x1024x128 .bf16)
    (hq : IsBlock qkv x0 0 hp) (hk : IsBlock qkv x1 0 (8 + hp)) (hv : IsBlock qkv x2 0 (16 + hp))
    (r : Fin 1024) (l : Fin 128) (s : Fin 2048) (j : Fin 1024) (hs : s.val = 0 * 1024 + r.val) (hj : j.val = hp * 128 + l.val) :
    k1_pay10 (upd1_2 i x0 x1 x2 (k1_pay1 (F := Ideal)) (k1_pay3 (F := Ideal))) (upd1_1 i x0 x1 (k1_pay1 (F := Ideal)) (k1_pay2 (F := Ideal))) (upd1_5 i x0 x1 x2 (k1_pay4 (F := Ideal)) (k1_pay6 (F := Ideal))) (upd1_4 i x0 x1 (k1_pay4 (F := Ideal)) (k1_pay5 (F := Ideal))) (ix3 (0 : Fin 1) r l)
      = Cert.Spec.flashOut qkv s j := by
  rw [pay10_apply]
  unfold Cert.Spec.flashOut
  rw [if_pos (by omega : s.val < 1024)]
  by_cases hl : l.val < 64
  · rw [dif_pos hl]
    obtain ⟨hh, hdj⟩ := hd_dd_lo hp hhp j l.val hj hl
    have h := head0_first i 0 (by decide) hi2 hi3 x0 x1 x2 r ⟨l.val, hl⟩
    rw [← scores_h0_lo qkv hp 0 0 x0 x1 hq hk rfl r (Cert.Spec.hd j) hh s hs,
      ← vals_h0_lo qkv hp 0 x2 hv rfl ⟨l.val, hl⟩ (Cert.Spec.hd j) hh (Cert.Spec.dd j) hdj]
    unfold Cert.Spec.flashRow1 Cert.Spec.quot
    exact congrArg (fun p : EReal × EReal × EReal => Ideal.div p.2.2 p.2.1) h
  · rw [dif_neg hl]
    have hl2 : l.val < 128 := l.isLt
    obtain ⟨hh, hdj⟩ := hd_dd_hi hp hhp j l.val hj (by omega) hl2
    have h := head1_first i 0 (by decide) hi2 hi3 x0 x1 x2 r ⟨l.val - 64, by omega⟩
    rw [← scores_h1_lo qkv hp 0 0 x0 x1 hq hk rfl r (Cert.Spec.hd j) hh s hs,
      ← vals_h1_lo qkv hp 0 x2 hv rfl ⟨l.val - 64, by omega⟩ (Cert.Spec.hd j) hh (Cert.Spec.dd j) hdj]
    unfold Cert.Spec.flashRow1 Cert.Spec.quot
    exact congrArg (fun p : EReal × EReal × EReal => Ideal.div p.2.2 p.2.1) h

theorem rowC_core (qkv : Fin 2048 → Fin 3072 → EReal) (iu it : grid1.Coords) (hp : ℕ) (hhp : hp < 8)
    (hu2 : (iu 2).val = 1) (hu3 : (iu 3).val = 0) (ht2 : (it 2).val = 1) (ht3 : (it 3).val = 1)
    (x0 x1 x2 y0 y1 y2 : Vec Ideal S1x1024x128 .bf16)
    (hq : IsBlock qkv x0 1 hp) (hk : IsBlock qkv x1 0 (8 + hp)) (hv : IsBlock qkv x2 0 (16 + hp))
    (hq' : IsBlock qkv y0 1 hp) (hk' : IsBlock qkv y1 1 (8 + hp)) (hv' : IsBlock qkv y2 1 (16 + hp))
    (r : Fin 1024) (l : Fin 128) (s : Fin 2048) (j : Fin 1024) (hs : s.val = 1 * 1024 + r.val) (hj : j.val = hp * 128 + l.val) :
    k1_pay10 (upd1_2 it y0 y1 y2 (upd1_0 iu x0 x1 (k1_pay1 (F := Ideal))) (upd1_2 iu x0 x1 x2 (k1_pay1 (F := Ideal)) (k1_pay3 (F := Ideal))))
        (upd1_1 it y0 y1 (upd1_0 iu x0 x1 (k1_pay1 (F := Ideal))) (upd1_1 iu x0 x1 (k1_pay1 (F := Ideal)) (k1_pay2 (F := Ideal))))
        (upd1_5 it y0 y1 y2 (upd1_3 iu x0 x1 (k1_pay4 (F := Ideal))) (upd1_5 iu x0 x1 x2 (k1_pay4 (F := Ideal)) (k1_pay6 (F := Ideal))))
        (upd1_4 it y0 y1 (upd1_3 iu x0 x1 (k1_pay4 (F := Ideal))) (upd1_4 iu x0 x1 (k1_pay4 (F := Ideal)) (k1_pay5 (F := Ideal)))) (ix3 (0 : Fin 1) r l)
      = Cert.Spec.flashOut qkv s j := by
  rw [pay10_apply]
  unfold Cert.Spec.flashOut
  rw [if_neg (by omega : ¬s.val < 1024)]
  by_cases hl : l.val < 64
  · rw [dif_pos hl]
    obtain ⟨hh, hdj⟩ := hd_dd_lo hp hhp j l.val hj hl
    have hA := head0_first iu 1 (by decide) hu2 hu3 x0 x1 x2 r ⟨l.val, hl⟩
    have hC := head0_next it 1 1 (by decide) (by decide) ht2 ht3 y0 y1 y2 (upd1_0 iu x0 x1 (k1_pay1 (F := Ideal))) (upd1_1 iu x0 x1 (k1_pay1 (F := Ideal)) (k1_pay2 (F := Ideal))) (upd1_2 iu x0 x1 x2 (k1_pay1 (F := Ideal)) (k1_pay3 (F := Ideal))) r ⟨l.val, hl⟩
    rw [hA] at hC
    rw [← scores_h0_lo qkv hp 1 0 x0 x1 hq hk rfl r (Cert.Spec.hd j) hh s hs,
      ← vals_h0_lo qkv hp 0 x2 hv rfl ⟨l.val, hl⟩ (Cert.Spec.hd j) hh (Cert.Spec.dd j) hdj,
      ← scores_h0_hi qkv hp 1 1 y0 y1 hq' hk' rfl r (Cert.Spec.hd j) hh s hs,
      ← vals_h0_hi qkv hp 1 y2 hv' rfl ⟨l.val, hl⟩ (Cert.Spec.hd j) hh (Cert.Spec.dd j) hdj]
    unfold Cert.Spec.flashRow2 Cert.Spec.quot
    rw [← hC]
  · rw [dif_neg hl]
    have hl2 : l.val < 128 := l.isLt
    obtain ⟨hh, hdj⟩ := hd_dd_hi hp hhp j l.val hj (by omega) hl2
    have hA := head1_first iu 1 (by decide) hu2 hu3 x0 x1 x2 r ⟨l.val - 64, by omega⟩
    have hC := head1_next it 1 1 (by decide) (by decide) ht2 ht3 y0 y1 y2 (upd1_3 iu x0 x1 (k1_pay4 (F := Ideal))) (upd1_4 iu x0 x1 (k1_pay4 (F := Ideal)) (k1_pay5 (F := Ideal))) (upd1_5 iu x0 x1 x2 (k1_pay4 (F := Ideal)) (k1_pay6 (F := Ideal))) r ⟨l.val - 64, by omega⟩
    rw [hA] at hC
    rw [← scores_h1_lo qkv hp 1 0 x0 x1 hq hk rfl r (Cert.Spec.hd j) hh s hs,
      ← vals_h1_lo qkv hp 0 x2 hv rfl ⟨l.val - 64, by omega⟩ (Cert.Spec.hd j) hh (Cert.Spec.dd j) hdj,
      ← scores_h1_hi qkv hp 1 1 y0 y1 hq' hk' rfl r (Cert.Spec.hd j) hh s hs,
      ← vals_h1_hi qkv hp 1 y2 hv' rfl ⟨l.val - 64, by omega⟩ (Cert.Spec.hd j) hh (Cert.Spec.dd j) hdj]
    unfold Cert.Spec.flashRow2 Cert.Spec.quot
    rw [← hC]

section Array
variable (V : (c : Dev nD) → (b : Ref sig .tc) → Buf (Elt Ideal) ((c : Thread nD τ).loc b))

theorem coords1_23 : ∀ t : Fin cfg1.N, (grid1.coords t 2).val = t.val / 2 % 2 ∧ (grid1.coords t 3).val = t.val % 2 :=
  (by decide +kernel : ∀ t : Fin grid1.N, (grid1.coords t 2).val = t.val / 2 % 2 ∧ (grid1.coords t 3).val = t.val % 2)

def G1 (c : Dev nD) : S2x2048x1024.Idx → EReal :=
  fun i => Cert.Spec.flashOut (fun s' n => V c main_v10 (ix3 (i 0 : Fin 2) s' n)) (i 1 : Fin 2048) (i 2 : Fin 1024)

theorem hq_of (c : Dev nD) (t : Fin cfg1.N) (b : Fin 2) (hb : b.val = t.val / 32) (qi hp : ℕ) (hqi : qi = t.val / 2 % 2) (hhp : hp = t.val / 4 % 8) :
    ∀ (r : Fin 1024) (l : Fin 128) (s : Fin 2048) (n : Fin 3072), s.val = qi * 1024 + r.val → n.val = hp * 128 + l.val →
      qblk V c t (ix3 (0 : Fin 1) r l) = V c main_v10 (ix3 b s n) :=
  fun r l s n hs hn => blk1_0_read_of (V c main_v10) t r l (ix3 b s n) hb (by subst hqi; exact hs) (by subst hhp; exact hn)

theorem hk_of (c : Dev nD) (t : Fin cfg1.N) (b : Fin 2) (hb : b.val = t.val / 32) (ki hp : ℕ) (hki : ki = min (t.val % 2) (t.val / 2 % 2)) (hhp : hp = t.val / 4 % 8) :
    ∀ (r : Fin 1024) (l : Fin 128) (s : Fin 2048) (n : Fin 3072), s.val = ki * 1024 + r.val → n.val = (8 + hp) * 128 + l.val →
      kblk V c t (ix3 (0 : Fin 1) r l) = V c main_v10 (ix3 b s n) :=
  fun r l s n hs hn => blk1_1_read_of (V c main_v10) t r l (ix3 b s n) hb (by subst hki; exact hs) (by subst hhp; exact hn)

theorem hv_of (c : Dev nD) (t : Fin cfg1.N) (b : Fin 2) (hb : b.val = t.val / 32) (ki hp : ℕ) (hki : ki = min (t.val % 2) (t.val / 2 % 2)) (hhp : hp = t.val / 4 % 8) :
    ∀ (r : Fin 1024) (l : Fin 128) (s : Fin 2048) (n : Fin 3072), s.val = ki * 1024 + r.val → n.val = (16 + hp) * 128 + l.val →
      vblk V c t (ix3 (0 : Fin 1) r l) = V c main_v10 (ix3 b s n) :=
  fun r l s n hs hn => blk1_2_read_of (V c main_v10) t r l (ix3 b s n) hb (by subst hki; exact hs) (by subst hhp; exact hn)

theorem row1 (c : Dev nD) (t : Fin cfg1.N) (ht : t.val % 2 = 1) (r : Fin 1024) (l : Fin 128) :
    (outsAt1 V c t.val t.isLt).1 (ix3 (0 : Fin 1) r l)
      = G1 V c (ix3 (⟨t.val / 32, by have := t1_lt t; omega⟩ : Fin 2) (⟨(t.val / 2 % 2) * 1024 + r.val, by have := r.isLt; omega⟩ : Fin 2048)
          (⟨(t.val / 4 % 8) * 128 + l.val, by have := l.isLt; omega⟩ : Fin 1024)) := by
  have h0 : ¬t.val % 2 = 0 := by omega
  have hN := t1_lt t
  obtain ⟨cu2, cu3⟩ := coords1_23 (prev1 t)
  obtain ⟨ct2, ct3⟩ := coords1_23 t
  have hpv : (prev1 t).val = t.val - 1 := rfl
  by_cases h1 : t.val % 4 = 3
  · rw [outC' V c t h0 h1]
    exact rowC_core (fun s' n => V c main_v10 (ix3 (⟨t.val / 32, by omega⟩ : Fin 2) s' n)) (grid1.coords (prev1 t)) (grid1.coords t) (t.val / 4 % 8) (by omega)
      (by rw [cu2, hpv]; omega) (by rw [cu3, hpv]; omega) (by rw [ct2]; omega) (by rw [ct3]; omega)
      (qblk V c (prev1 t)) (kblk V c (prev1 t)) (vblk V c (prev1 t)) (qblk V c t) (kblk V c t) (vblk V c t)
      (hq_of V c (prev1 t) (⟨t.val / 32, by omega⟩ : Fin 2) (by show t.val / 32 = (t.val - 1) / 32; omega) 1 _ (by rw [hpv]; omega) (by rw [hpv]; omega))
      (hk_of V c (prev1 t) (⟨t.val / 32, by omega⟩ : Fin 2) (by show t.val / 32 = (t.val - 1) / 32; omega) 0 _ (by rw [hpv]; omega) (by rw [hpv]; omega))
      (hv_of V c (prev1 t) (⟨t.val / 32, by omega⟩ : Fin 2) (by show t.val / 32 = (t.val - 1) / 32; omega) 0 _ (by rw [hpv]; omega) (by rw [hpv]; omega))
      (hq_of V c t (⟨t.val / 32, by omega⟩ : Fin 2) rfl 1 _ (by omega) rfl)
      (hk_of V c t (⟨t.val / 32, by omega⟩ : Fin 2) rfl 1 _ (by omega) rfl)
      (hv_of V c t (⟨t.val / 32, by omega⟩ : Fin 2) rfl 1 _ (by omega) rfl)
      r l _ _ (by show (t.val / 2 % 2) * 1024 + r.val = 1 * 1024 + r.val; omega) rfl
  · rw [outB' V c t h0 h1]
    exact rowB_core (fun s' n => V c main_v10 (ix3 (⟨t.val / 32, by omega⟩ : Fin 2) s' n)) (grid1.coords (prev1 t)) (t.val / 4 % 8) (by omega)
      (by rw [cu2, hpv]; omega) (by rw [cu3, hpv]; omega)
      (qblk V c (prev1 t)) (kblk V c (prev1 t)) (vblk V c (prev1 t))
      (hq_of V c (prev1 t) (⟨t.val / 32, by omega⟩ : Fin 2) (by show t.val / 32 = (t.val - 1) / 32; omega) 0 _ (by rw [hpv]; omega) (by rw [hpv]; omega))
      (hk_of V c (prev1 t) (⟨t.val / 32, by omega⟩ : Fin 2) (by show t.val / 32 = (t.val - 1) / 32; omega) 0 _ (by rw [hpv]; omega) (by rw [hpv]; omega))
      (hv_of V c (prev1 t) (⟨t.val / 32, by omega⟩ : Fin 2) (by show t.val / 32 = (t.val - 1) / 32; omega) 0 _ (by rw [hpv]; omega) (by rw [hpv]; omega))
      r l _ _ (by show (t.val / 2 % 2) * 1024 + r.val = 0 * 1024 + r.val; omega) rfl

theorem flushed1_3_eq (c : Dev nD) (t : Fin cfg1.N) (ht : t.val % 2 = 1) :
    (dat1 (F := Ideal) V c).flushed 3 t = ((cfg1.win 3).blk t).view.read (Elt Ideal) (G1 V c) := by
  show (cfg1.win 3).cut (grid1.coords t) ((dat1 V c).after 3 t) = _
  rw [after1_3]
  funext y
  obtain ⟨y0, r, l, rfl⟩ : ∃ (y0 : Fin 1) (r : Fin 1024) (l : Fin 128), y = ix3 y0 r l := ⟨y 0, y 1, y 2, eq_ix3 y⟩
  obtain rfl : y0 = 0 := Subsingleton.elim _ _
  rw [blk1_3_read]
  exact row1 V c t ht r l

theorem final1 (c : Dev nD) (b : Fin 2) (s : Fin 2048) (j : Fin 1024) :
    (dat1 (F := Ideal) V c).arrAt 3 cfg1.N (ValueIdx.ix3 b s j)
      = Cert.Spec.flashOut (fun s' n => V c main_v10 (ValueIdx.ix3 b s' n)) s j :=
  congrFun (arrAt1_3_of_flushed (dat1 V c) (G1 V c) (flushed1_3_eq V c)) (ix3 b s j)

end Array

end Cert.KernelIdeal.Hand

end
-- ==== Proof.R2Val.lean ====
import proofs.«410688_j9775345566104_3_alg».proof.Proof.R2
import proofs.«410688_j9775345566104_3_alg».proof.Proof.LibLinear
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Lib
open Idealize.ShloMosaic Idealize.ShloMosaic.TcCoe Idealize.SL.Sem Idealize.ShloMosaic.ValueIdx
open Idealize.ShloMosaic.Pipeline (Dat)
open scoped BigOperators

/-- Row `i 0` of `x` against column `i 1` of `w`, plus the bias of that column. -/
def lin2 (x : S4096x1024.Idx → EReal) (w : S1024x1024.Idx → EReal) (b : S1x1024.Idx → EReal) : S4096x1024.Idx → EReal :=
  fun i => (∑ k : Fin 1024, x (ix2 (i 0 : Fin 4096) k) * w (ix2 k (i 1 : Fin 1024))) + b (ix2 (0 : Fin 1) (i 1 : Fin 1024))

theorem lin2_ix2 (x : S4096x1024.Idx → EReal) (w : S1024x1024.Idx → EReal) (b : S1x1024.Idx → EReal) (r : Fin 4096) (q : Fin 1024) :
    lin2 x w b (ix2 r q) = (∑ k : Fin 1024, x (ix2 r k) * w (ix2 k q)) + b (ix2 (0 : Fin 1) q) := rfl

/-- The body's payload at an index: the first block's row against the second's column, plus the third's entry of that column. -/
theorem pay2_lin_apply (x0 : Vec Ideal S1024x1024 .bf16) (x1 : Vec Ideal S1024x1024 .bf16) (x2 : Vec Ideal S1x1024 .f32) (j : S1024x1024.Idx) :
    k2_pay1 x0 x1 x2 j = (∑ k : Fin 1024, x0 (ix2 (j 0) k) * x1 (ix2 k (j 1))) + x2 (ix2 0 (j 1)) := by
  unfold k2_pay1; simp only [shapeCast_self]
  exact linear_apply _ _ _ _ j

section Array
variable (V : (c : Dev nD) → (b : Ref sig .tc) → Buf (Elt Ideal) ((c : Thread nD τ).loc b))

/-- The index maps over the grid: the rows' block index is the output's, every other block index is zero. -/
theorem idx_rows2 : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0 ∧ win2_3.index t (1 : Fin 2) = 0 :=
  (by decide +kernel : ∀ t : Fin grid2.N, _)

/-- Every row block of the output is some point's. -/
theorem idx_onto_rows2 : ∀ q0 : Fin 4, ∃ t : Fin cfg2.N, win2_3.index t = ![q0.val, 0] :=
  (by decide +kernel : ∀ q0 : Fin 4, ∃ t : Fin grid2.N, win2_3.index t = ![q0.val, 0])

/-- What point `t` writes back is its block of the layer of the arrays the region is entered with. -/
theorem flushed2_3_eq (c : Dev nD) (t : Fin cfg2.N) :
    (dat2 (F := Ideal) V c).flushed 3 t = ((cfg2.win 3).blk t).view.read (Elt Ideal) (lin2 (V c main_v13) (V c main_v15) (V c main_v16)) := by
  show (cfg2.win 3).cut (grid2.coords t) ((dat2 V c).after 3 t) = _
  rw [(after2 V c t).2.2.2]
  unfold out2_3
  rw [View.canon_unit_zero zero2]
  simp only [View.ld_unit_zero (S := S1024x1024) zero2, View.ld_unit_zero (S := S1x1024) zero2]
  funext j
  show k2_pay1 (iblk2 V c 0 t) (iblk2 V c 1 t) (iblk2 V c 2 t) j = lin2 (V c main_v13) (V c main_v15) (V c main_v16) (((cfg2.win 3).blk t).view.emb j)
  exact (pay2_lin_apply _ _ _ j).trans (linear_block (R := 4096) (M := 1024) (K := 1024) (N := 1024) (V c main_v13) (V c main_v15) (V c main_v16)
    (win2_0.rect_emb_val t) (win2_1.rect_emb_val t) (win2_2.rect_emb_val t) (win2_3.rect_emb_val t) (idx_rows2 t) j)

/-- Every index of the output array is in the block of the point its row names. -/
theorem cover2_3_rows (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto_rows2 ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  show i ∈ ((View.whole main_v17).slice (win2_3.rect t)).set
  rw [View.set_slice_whole, Rect.mem_set_unit]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- What the region leaves in its output array: the layer of the three input arrays as it finds them. -/
theorem final2 (c : Dev nD) :
    (dat2 (F := Ideal) V c).arrAt 3 cfg2.N = fun i => lin2 (V c main_v13) (V c main_v15) (V c main_v16) i :=
  (dat2 V c).arrAt_eq_of_cover 3 (lin2 (V c main_v13) (V c main_v15) (V c main_v16)) (fun t _ => flushed2_3_eq V c t) cover2_3_rows

end Array

end Cert.KernelIdeal.Hand

end
-- ==== Proof.SpecArr.lean ====
import proofs.«410688_j9775345566104_3_alg».proof.Proof.Spec
import Idealize.ShloMosaic.Lib.ValueIdx

noncomputable section

namespace Cert.Spec

open Idealize.ShloMosaic Idealize.ShloMosaic.ValueIdx

def arr3 (a : (⟨3, ![2048, 2, 1024]⟩ : Shape).Idx → EReal) : Fin 2048 → Fin 2 → Fin 1024 → EReal :=
  fun s b k => a (ix3 s b k)

def arr2 (a : (⟨2, ![1024, 1024]⟩ : Shape).Idx → EReal) : Fin 1024 → Fin 1024 → EReal :=
  fun e k => a (ix2 e k)

def arr1 (a : (⟨1, ![1024]⟩ : Shape).Idx → EReal) : Fin 1024 → EReal :=
  fun e => a (ix1 e)

end Cert.Spec

end
-- ==== Proof.HostVal.lean ====
import proofs.«410688_j9775345566104_3_alg».proof.Proof.Gen.KernelIdeal.Regions
import proofs.«410688_j9775345566104_3_alg».proof.Proof.SpecArr
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen

section
variable (W : Valuation τ sig (Elt Ideal))

-- Merging the sequence and batch axes: row r is position r / 2 of batch entry r % 2.
theorem host0_v0 (r : Fin 4096) (k : Fin 1024) :
    (StableHlo.after hostOps0 W (Proc.devRef .tc main_v0) : S4096x1024.Idx → EReal) (ix2 r k)
      = (W (Proc.devRef .tc main_arg0) : S2048x2x1024.Idx → EReal)
          (ix3 ⟨r.val / 2, by have := r.isLt; omega⟩ ⟨r.val % 2, by omega⟩ k) := by
  simp only [hostOps0]; after_results
  refine shapeCast_apply (s := S2048x2x1024) (t := S4096x1024) _ _ _ _ ?_
  rw [Shape.rowMajor_val_two, Shape.rowMajor_val_three]
  show (r.val / 2 * 2 + r.val % 2) * 1024 + k.val = r.val * 1024 + k.val
  omega

-- The fused weight: three transposed matrices laid side by side along the columns.
theorem host0_v5 (k : Fin 1024) (n3 : Fin 3072) :
    (StableHlo.after hostOps0 W (Proc.devRef .tc main_v5) : S1024x3072.Idx → EReal) (ix2 k n3)
      = Cert.Spec.cat3 (Cert.Spec.arr2 (W (Proc.devRef .tc main_arg1))) (Cert.Spec.arr2 (W (Proc.devRef .tc main_arg3)))
          (Cert.Spec.arr2 (W (Proc.devRef .tc main_arg5))) n3 k := by
  simp only [hostOps0]; after_results
  rw [truncf_apply]
  refine (concatenate_ofFn_apply (t := S1024x3072) 1 (fun p : Fin 3 => transpose S1024x1024 [1, 0]
      (![(W (Proc.devRef .tc main_arg1) : S1024x1024.Idx → EReal), W (Proc.devRef .tc main_arg3), W (Proc.devRef .tc main_arg5)] p)
      transposes_S1024x1024_S1024x1024_1_0) _ rfl 1024 rfl (ix2 k n3) ⟨n3.val / 1024, by have := n3.isLt; omega⟩ rfl
    (ix2 k ⟨n3.val % 1024, Nat.mod_lt _ (by decide)⟩) rfl
    (fun b => match b with | ⟨0, _⟩ => fun _ => rfl | ⟨1, _⟩ => fun h => absurd rfl h)).trans ?_
  refine (transpose_ix2_apply _ _ k _).trans ?_
  unfold Cert.Spec.cat3
  generalize (⟨n3.val / 1024, _⟩ : Fin 3) = p
  match p with | ⟨0, _⟩ | ⟨1, _⟩ | ⟨2, _⟩ => rfl

-- The fused bias: three vectors laid end to end.
theorem host0_v7 (n3 : Fin 3072) :
    (StableHlo.after hostOps0 W (Proc.devRef .tc main_v7) : S1x3072.Idx → EReal) (ix2 (0 : Fin 1) n3)
      = Cert.Spec.cat3 (Cert.Spec.arr1 (W (Proc.devRef .tc main_arg2))) (Cert.Spec.arr1 (W (Proc.devRef .tc main_arg4)))
          (Cert.Spec.arr1 (W (Proc.devRef .tc main_arg6))) n3 := by
  simp only [hostOps0]; after_results
  refine (shapeCast_a_1a_apply _ _ 0 n3).trans ?_
  refine (concatenate_ofFn_apply (t := S3072) 0 (fun p : Fin 3 =>
      ![(W (Proc.devRef .tc main_arg2) : S1024.Idx → EReal), W (Proc.devRef .tc main_arg4), W (Proc.devRef .tc main_arg6)] p)
    _ rfl 1024 rfl (ix1 n3) ⟨n3.val / 1024, by have := n3.isLt; omega⟩ rfl (ix1 ⟨n3.val % 1024, Nat.mod_lt _ (by decide)⟩) rfl
    (fun b => match b with | ⟨0, _⟩ => fun h => absurd rfl h)).trans ?_
  unfold Cert.Spec.cat3
  generalize (⟨n3.val / 1024, _⟩ : Fin 3) = p
  match p with | ⟨0, _⟩ | ⟨1, _⟩ | ⟨2, _⟩ => rfl

-- Splitting the rows back into sequence and batch, then putting the batch axis first.
theorem host1_v10 (b : Fin 2) (s : Fin 2048) (n3 : Fin 3072) :
    (StableHlo.after hostOps1 W (Proc.devRef .tc main_v10) : S2x2048x3072.Idx → EReal) (ix3 b s n3)
      = (W (Proc.devRef .tc main_v8) : S4096x3072.Idx → EReal)
          (ix2 ⟨s.val * 2 + b.val, by have := s.isLt; have := b.isLt; omega⟩ n3) := by
  simp only [hostOps1]; after_results
  refine (transpose_apply (s := S2048x2x3072) (t := S2x2048x3072) _ _ _ _ (ix3 s b n3)
    fun c => match c with | ⟨0, _⟩ | ⟨1, _⟩ | ⟨2, _⟩ => rfl).trans ?_
  refine shapeCast_apply (s := S4096x3072) (t := S2048x2x3072) _ _ _ _ ?_
  rw [Shape.rowMajor_val_two, Shape.rowMajor_val_three]
  rfl

theorem host2_v13 (r : Fin 4096) (j : Fin 1024) :
    (StableHlo.after hostOps2 W (Proc.devRef .tc main_v13) : S4096x1024.Idx → EReal) (ix2 r j)
      = (W (Proc.devRef .tc main_v11) : S2x2048x1024.Idx → EReal)
          (ix3 ⟨r.val % 2, by omega⟩ ⟨r.val / 2, by have := r.isLt; omega⟩ j) := by
  simp only [hostOps2]; after_results
  refine (shapeCast_apply (s := S2048x2x1024) (t := S4096x1024) _ _ _
    (ix3 ⟨r.val / 2, by have := r.isLt; omega⟩ ⟨r.val % 2, by omega⟩ j) ?_).trans ?_
  · rw [Shape.rowMajor_val_two, Shape.rowMajor_val_three]
    show (r.val / 2 * 2 + r.val % 2) * 1024 + j.val = r.val * 1024 + j.val
    omega
  · exact transpose_apply (s := S2x2048x1024) (t := S2048x2x1024) _ _ _ _ _
      fun c => match c with | ⟨0, _⟩ | ⟨1, _⟩ | ⟨2, _⟩ => rfl

theorem host2_v15 (k n : Fin 1024) :
    (StableHlo.after hostOps2 W (Proc.devRef .tc main_v15) : S1024x1024.Idx → EReal) (ix2 k n)
      = (W (Proc.devRef .tc main_arg7) : S1024x1024.Idx → EReal) (ix2 n k) := by
  simp only [hostOps2]; after_results
  exact transpose_ix2_apply _ _ k n

theorem host2_v16 (n : Fin 1024) :
    (StableHlo.after hostOps2 W (Proc.devRef .tc main_v16) : S1x1024.Idx → EReal) (ix2 (0 : Fin 1) n)
      = (W (Proc.devRef .tc main_arg8) : S1024.Idx → EReal) (ix1 n) := by
  simp only [hostOps2]; after_results
  exact shapeCast_a_1a_apply _ _ 0 n

theorem host3_v18 (s : Fin 2048) (b : Fin 2) (n : Fin 1024) :
    (StableHlo.after hostOps3 W (Proc.devRef .tc main_v18) : S2048x2x1024.Idx → EReal) (ix3 s b n)
      = (W (Proc.devRef .tc main_v17) : S4096x1024.Idx → EReal) (ix2 ⟨s.val * 2 + b.val, by have := s.isLt; have := b.isLt; omega⟩ n) := by
  simp only [hostOps3]; after_results
  refine shapeCast_apply (s := S4096x1024) (t := S2048x2x1024) _ _ _ _ ?_
  rw [Shape.rowMajor_val_two, Shape.rowMajor_val_three]
  rfl

end

end Cert.KernelIdeal.Hand

end
-- ==== Proof.KerVal.lean ====
import proofs.«410688_j9775345566104_3_alg».proof.Proof.Run
import proofs.«410688_j9775345566104_3_alg».proof.Proof.R0Val
import proofs.«410688_j9775345566104_3_alg».proof.Proof.R1Val
import proofs.«410688_j9775345566104_3_alg».proof.Proof.R2Val
import proofs.«410688_j9775345566104_3_alg».proof.Proof.HostVal
import proofs.«410688_j9775345566104_3_alg».proof.Proof.SpecArr
import proofs.«410688_j9775345566104_3_alg».proof.Proof.Gen.KernelIdeal.Regions
import Idealize.ShloMosaic.Lib.Pipeline.FrameSuffix
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

section KernelValue
variable (m : (ℓ : Loc nD τ sig) → Buf (Elt Ideal) ℓ) (ρ : Dev nD → PrngReg)

def row (s : Fin 2048) (b : Fin 2) : Fin 4096 := ⟨s.val * 2 + b.val, by have := s.isLt; have := b.isLt; omega⟩

theorem row_div (s : Fin 2048) (b : Fin 2) (h : (row s b).val / 2 < 2048) : (⟨(row s b).val / 2, h⟩ : Fin 2048) = s :=
  Fin.ext (by show (s.val * 2 + b.val) / 2 = s.val; have := b.isLt; omega)
theorem row_mod (s : Fin 2048) (b : Fin 2) (h : (row s b).val % 2 < 2) : (⟨(row s b).val % 2, h⟩ : Fin 2) = b :=
  Fin.ext (by show (s.val * 2 + b.val) % 2 = b.val; have := b.isLt; omega)

theorem W4_arg (c : Dev nD) (a : Ref sig .tc) (h0 : a ∉ hostOps0_W) (h1 : a ∉ hostOps1_W)
    (hr0 : ∀ w, Pipeline.arrRef spec0 w ≠ a) (hr1 : ∀ w, Pipeline.arrRef spec1 w ≠ a) :
    W4 m ρ c (Proc.devRef .tc a) = m ((c.tc : Thread nD τ).loc a) :=
  calc W4 m ρ c (Proc.devRef .tc a)
    _ = W3 m ρ c (Proc.devRef .tc a) := W4_of_ne m ρ c a hr1
    _ = W2 m ρ c (Proc.devRef .tc a) := StableHlo.after_of_writes_sub hostOps1 _ hostOps1_writes h1
    _ = W1 m ρ c (Proc.devRef .tc a) := W2_of_ne m ρ c a hr0
    _ = W0 m ρ c (Proc.devRef .tc a) := StableHlo.after_of_writes_sub hostOps0 _ hostOps0_writes h0
    _ = m ((c.tc : Thread nD τ).loc a) := rfl

theorem wo_value (c : Dev nD) (k n : Fin 1024) :
    V5 m ρ c main_v15 (ix2 k n) = Cert.Spec.arr2 (m ((c.tc : Thread nD τ).loc main_arg7)) n k := by
  show StableHlo.after hostOps2 (W4 m ρ c) (Proc.devRef .tc main_v15) (ix2 k n) = _
  rw [host2_v15, W4_arg m ρ c main_arg7 (by decide) (by decide) (by decide) (by decide)]
  rfl

theorem bo_value (c : Dev nD) (n : Fin 1024) :
    V5 m ρ c main_v16 (ix2 (0 : Fin 1) n) = Cert.Spec.arr1 (m ((c.tc : Thread nD τ).loc main_arg8)) n := by
  show StableHlo.after hostOps2 (W4 m ρ c) (Proc.devRef .tc main_v16) (ix2 (0 : Fin 1) n) = _
  rw [host2_v16, W4_arg m ρ c main_arg8 (by decide) (by decide) (by decide) (by decide)]
  rfl

-- Output projection of the streamed attention of the fused projection, each stage read back at an index.
theorem kernel_value (c : Dev nD) (s : Fin 2048) (b : Fin 2) (n : Fin 1024) :
    W7 m ρ c (Proc.devRef .tc main_v18) (ix3 s b n)
      = Cert.Spec.outK (Cert.Spec.arr3 (m ((c.tc : Thread nD τ).loc main_arg0)))
          (Cert.Spec.arr2 (m ((c.tc : Thread nD τ).loc main_arg1))) (Cert.Spec.arr2 (m ((c.tc : Thread nD τ).loc main_arg3))) (Cert.Spec.arr2 (m ((c.tc : Thread nD τ).loc main_arg5)))
          (Cert.Spec.arr2 (m ((c.tc : Thread nD τ).loc main_arg7)))
          (Cert.Spec.arr1 (m ((c.tc : Thread nD τ).loc main_arg2))) (Cert.Spec.arr1 (m ((c.tc : Thread nD τ).loc main_arg4))) (Cert.Spec.arr1 (m ((c.tc : Thread nD τ).loc main_arg6)))
          (Cert.Spec.arr1 (m ((c.tc : Thread nD τ).loc main_arg8))) s b n := by
  show StableHlo.after hostOps3 (W6 m ρ c) (Proc.devRef .tc main_v18) (ix3 s b n) = _
  rw [host3_v18]
  show W6 m ρ c (Proc.devRef .tc (Pipeline.arrRef spec2 3)) (ix2 (row s b) n) = _
  rw [W6_arr, final2]
  show lin2 (V5 m ρ c main_v13) (V5 m ρ c main_v15) (V5 m ρ c main_v16) (ix2 (row s b) n) = _
  rw [lin2_ix2, bo_value]
  unfold Cert.Spec.outK Cert.Spec.ctxK
  refine congrArg (· + _) (Finset.sum_congr rfl fun j _ => congrArg₂ (· * ·) ?_ (wo_value m ρ c j n))
  show StableHlo.after hostOps2 (W4 m ρ c) (Proc.devRef .tc main_v13) (ix2 (row s b) j) = _
  rw [host2_v13, row_div, row_mod, W4_main_v11, final1]
  refine congrArg (fun f => Cert.Spec.flashOut f s j) (funext fun s' => funext fun n3 => ?_)
  show StableHlo.after hostOps1 (W2 m ρ c) (Proc.devRef .tc main_v10) (ix3 b s' n3) = _
  rw [host1_v10]
  show W2 m ρ c (Proc.devRef .tc (Pipeline.arrRef spec0 3)) (ix2 (row s' b) n3) = _
  rw [W2_arr, final0]
  show lin0At (V1 m ρ c main_v0) (V1 m ρ c main_v5) (V1 m ρ c main_v7) (row s' b) n3 = _
  unfold lin0At Cert.Spec.qkvK
  refine congrArg₂ (· + ·) (Finset.sum_congr rfl fun k _ => congrArg₂ (· * ·) ?_ (host0_v5 _ k n3)) (host0_v7 _ n3)
  show StableHlo.after hostOps0 (W0 m ρ c) (Proc.devRef .tc main_v0) (ix2 (row s' b) k) = _
  rw [host0_v0, row_div, row_mod]
  rfl

end KernelValue

end Cert.KernelIdeal.Hand

end
-- ==== Proof.RefVal.lean ====
import proofs.«410688_j9775345566104_3_alg».proof.Proof.Gen.ReferenceIdeal.Run
import proofs.«410688_j9775345566104_3_alg».proof.Proof.Gen.ReferenceIdeal.Read
import proofs.«410688_j9775345566104_3_alg».proof.Proof.SpecArr
import Idealize.ShloMosaic.Lib.StableHlo.Predicate
import Idealize.ShloMosaic.PureOps.Reduce
import Idealize.ShloMosaic.PureOps.Ideal.Laws
import Mathlib.Data.Finset.Fold
import Mathlib.Data.Finset.Lattice.Fold
import Mathlib.Algebra.BigOperators.Group.Finset.Basic

noncomputable section

namespace Cert.ReferenceIdeal.RefValue

open Cert.ReferenceIdeal Cert.ReferenceIdeal.Gen Cert.ReferenceIdeal.Read Cert.Spec Idealize.ShloMosaic Idealize.ShloMosaic.ValueIdx Idealize.ShloMosaic.TcCoe Idealize.SL.Sem Idealize.ShloMosaic.StableHlo Idealize.ShloMosaic.StableHlo.Predicate

abbrev A3 : Type := (⟨S2048x2x1024, .f32⟩ : BufTy).Contents (Elt Ideal)

abbrev A2 : Type := (⟨S1024x1024, .f32⟩ : BufTy).Contents (Elt Ideal)

abbrev A1 : Type := (⟨S1024, .f32⟩ : BufTy).Contents (Elt Ideal)

section
variable (x0 : A3) (wq : A2) (bq : A1) (wk : A2) (bk : A1) (wv : A2) (bv : A1) (wo : A2) (bo : A1)
  (b : Fin 2) (h : Fin 16) (s : Fin 2048)

-- A dense layer read at an index: the contraction over the input features plus the bias.
theorem q_lin (e : Fin 1024) :
    val_main_v3 (F := Ideal) x0 wq bq (ix3 s b e) = proj (arr3 x0) (arr2 wq) (arr1 bq) s b e := by
  rw [val_main_v3_apply, val_main_v0_apply, val_main_v2_apply, val_main_v1_apply, Ideal.addf_def]
  have hl : ∀ k : Fin 1024, lidx_main_v0 (ix3 s b e) k = ix3 s b k := fun _ => eq_ix3 _
  have hr : ∀ k : Fin 1024, ridx_main_v0 (ix3 s b e) k = ix2 e k := fun _ => eq_ix2 _
  have hb : idx_main_v1 (idx_main_v2 (ix3 s b e)) = ix1 e := eq_ix1 _
  simp only [hl, hr, hb]
  rfl

-- Splitting the features into heads and moving the head axis outward only renames the index.
theorem q_at (d : Fin 64) :
    val_main_v5 (F := Ideal) x0 wq bq (ix4 b h s d) = proj (arr3 x0) (arr2 wq) (arr1 bq) s b (col h d) := by
  rw [val_main_v5_apply, val_main_v4_apply]
  have hi : idx_main_v4 (idx_main_v5 (ix4 b h s d)) = ix3 s b (col h d) := funext fun a => Fin.ext (by
    have hs := s.isLt; have hb := b.isLt; have hh := h.isLt; have hd := d.isLt
    match a with | ⟨0, _⟩ | ⟨1, _⟩ | ⟨2, _⟩ => dsimp only [idx_main_v4, idx_main_v5, ix4, ix3, col]; omega)
  rw [hi]
  exact q_lin x0 wq bq b s (col h d)

-- The key and value projections are the same dense layer as the query projection, at other weights.
theorem k_at (d : Fin 64) :
    val_main_v11 (F := Ideal) x0 wq bq (ix4 b h s d) = proj (arr3 x0) (arr2 wq) (arr1 bq) s b (col h d) :=
  q_at x0 wq bq b h s d

theorem v_at (d : Fin 64) :
    val_main_v17 (F := Ideal) x0 wq bq (ix4 b h s d) = proj (arr3 x0) (arr2 wq) (arr1 bq) s b (col h d) :=
  q_at x0 wq bq b h s d

theorem ofBits_ninf : Ideal.ofBits .f32 0xFF800000#32 = ⊥ := by simp [Ideal.ofBits, Ideal.ieee]

-- The causal mask keeps a key position exactly when it does not exceed the query position.
theorem mask_at (k' : Fin 2048) :
    val_main_v23 (F := Ideal) (ix2 s k') = if k'.val ≤ s.val then 0#1 else 1#1 := by
  rw [val_main_v23_apply, val_main_call0_v4_apply, val_main_call0_v2_apply, val_main_call0_v0_apply, val_main_call0_v1_apply,
    val_main_call0_c_apply, val_main_call0_v3_apply, val_main_call0_v5_apply, val_main_call0_c_0_apply, val_main_v22_apply,
    val_main_c_apply]
  have hs := s.isLt; have hk := k'.isLt
  have hn : ∀ n, n < 2048 → (BitVec.ofNat 32 n).toNat = n := fun n h => by
    rw [BitVec.toNat_ofNat]; exact Nat.mod_eq_of_lt (by omega)
  show Scalar.select (IntOp.cmpi .sge (BitVec.ofNat 32 s.val + 0#32) (BitVec.ofNat 32 k'.val)) 0#1 1#1 = _
  rw [BitVec.add_zero]
  have hc := sge_iff_toNat (a := BitVec.ofNat 32 s.val) (b := BitVec.ofNat 32 k'.val) (by rw [hn _ hs]; omega) (by rw [hn _ hk]; omega)
  rw [hn _ hs, hn _ hk] at hc
  by_cases hle : k'.val ≤ s.val
  · rw [if_pos hle, hc.2 hle, select_one]
  · rw [if_neg hle, eq_zero_of_ne_one (fun h1 => hle (hc.1 h1)), select_zero]

theorem scores_at (k' : Fin 2048) :
    val_main_v25 (F := Ideal) x0 wq bq wk bk (ix4 b h s k')
      = scoresR (fun s' d => proj (arr3 x0) (arr2 wq) (arr1 bq) s' b (col h d))
          (fun s' d => proj (arr3 x0) (arr2 wk) (arr1 bk) s' b (col h d)) s k' := by
  rw [val_main_v25_apply, val_main_call1_v1_apply, val_main_v24_apply]
  have hi : idx_main_v24 (idx_main_call1_v1 (ix4 b h s k')) = ix2 s k' := eq_ix2 _
  rw [hi, mask_at]
  unfold scoresR
  by_cases hle : k'.val ≤ s.val
  · rw [if_pos hle, if_pos hle, select_zero, val_main_v21_apply, val_main_v18_apply, val_main_v20_apply, val_main_v19_apply,
      val_main_cst_apply, Ideal.hostDivf_def, Ideal.hostUnary_sqrt_def, Ideal.ofBits_def]
    have hl : ∀ k : Fin 64, lidx_main_v18 (ix4 b h s k') k = ix4 b h s k := fun _ => eq_ix4 _
    have hr : ∀ k : Fin 64, ridx_main_v18 (ix4 b h s k') k = ix4 b h k' k := fun _ => eq_ix4 _
    simp only [hl, hr, q_at, k_at]
    rfl
  · rw [if_neg hle, if_neg hle, select_one, val_main_call1_v2_apply, val_main_call1_v0_apply, val_main_cst_0_apply,
      Ideal.ofBits_def, ofBits_ninf]

-- The reduction over the key axis is a fold of max from the bottom element, which is the supremum.
theorem rowmax_at :
    val_main_v28 (F := Ideal) x0 wq bq wk bk (ix3 b h s)
      = rowMax (fun k' : Fin 2048 => val_main_v25 (F := Ideal) x0 wq bq wk bk (ix4 b h s k')) := by
  rw [val_main_v28_apply, val_main_v27_apply, val_main_cst_2_apply, Ideal.maximumf_def, Ideal.ofBits_def, ofBits_ninf,
    max_eq_right bot_le]
  unfold val_main_v26
  generalize val_main_v25 (F := Ideal) x0 wq bq wk bk = y
  refine (Host.reduce_eq_fold_single (s := S2x16x2048x2048) (t := S2x16x2048) (α := Ideal .f32) (a := 3) FloatOps.maximumf y
    (val_main_cst_1 (F := Ideal)) reducesTo_S2x16x2048x2048_S2x16x2048_d3 (by decide) h_S_ (ix3 b h s)).trans ?_
  rw [val_main_cst_1_apply, Ideal.ofBits_def, ofBits_ninf]
  exact Finset.fold_congr fun k _ => congrArg y (eq_ix4 _)

-- Exponentials of the shifted scores, normalised by their sum and contracted with the values: the softmax row.
theorem ctx_at (j : Fin 1024) :
    val_main_v39 (F := Ideal) x0 wq bq wk bk wv bv (ix3 s b j)
      = ctxR (arr3 x0) (arr2 wq) (arr2 wk) (arr2 wv) (arr1 bq) (arr1 bk) (arr1 bv) s b j := by
  rw [val_main_v39_apply, val_main_v38_apply]
  have hi : idx_main_v38 (idx_main_v39 (ix3 s b j)) = ix4 b (hd j) s (dd j) := funext fun a => Fin.ext (by
    have hs := s.isLt; have hb := b.isLt; have hj := j.isLt
    match a with | ⟨0, _⟩ | ⟨1, _⟩ | ⟨2, _⟩ | ⟨3, _⟩ => dsimp only [idx_main_v38, idx_main_v39, ix4, ix3, hd, dd]; omega)
  rw [hi, val_main_v37_apply]
  unfold ctxR softmaxRow
  generalize hd j = h
  generalize dd j = d
  refine Finset.sum_congr rfl fun k _ => ?_
  have hl : lidx_main_v37 (ix4 b h s d) k = ix4 b h s k := eq_ix4 _
  have hr : ridx_main_v37 (ix4 b h s d) k = ix4 b h k d := eq_ix4 _
  have h3 : idx_main_v34 (idx_main_v35 (ix4 b h s k)) = ix3 b h s := eq_ix3 _
  have h4 : ∀ j : Fin 2048, idx_main_v33 (ix3 b h s) j = ix4 b h s j := fun _ => eq_ix4 _
  have h5 : ∀ j : Fin 2048, idx_main_v29 (idx_main_v30 (ix4 b h s j)) = ix3 b h s := fun _ => eq_ix3 _
  rw [hl, hr, v_at, val_main_v36_apply, val_main_v35_apply, val_main_v34_apply, h3, val_main_v33_apply, val_main_cst_3_apply,
    Ideal.ofBits_def, Ideal.ofBits_zero_f32, zero_add]
  simp only [h4, val_main_v32_apply, val_main_v31_apply, val_main_v30_apply, val_main_v29_apply, h5, rowmax_at, scores_at]
  rfl

-- The output projection is the dense layer of the projections, applied to the attention context.
theorem out_at (n : Fin 1024) :
    val_main_v43 (F := Ideal) x0 wq bq wk bk wv bv wo bo (ix3 s b n)
      = outR (arr3 x0) (arr2 wq) (arr2 wk) (arr2 wv) (arr2 wo) (arr1 bq) (arr1 bk) (arr1 bv) (arr1 bo) s b n := by
  refine (q_lin (val_main_v39 (F := Ideal) x0 wq bq wk bk wv bv) wo bo b s n).trans ?_
  unfold proj outR
  simp only [arr3, ctx_at]

end

theorem ref_value (m : (ℓ : Loc nD τ sig) → Buf (Elt Ideal) ℓ) (c : Dev nD) (s : Fin 2048) (b : Fin 2) (n : Fin 1024) :
    Cert.ReferenceIdeal.Value.res_out0 (F := Ideal) m c (ValueIdx.ix3 s b n)
      = Cert.Spec.outR (arr3 (m ((c.tc : Thread nD τ).loc main_arg0))) (arr2 (m ((c.tc : Thread nD τ).loc main_arg1)))
          (arr2 (m ((c.tc : Thread nD τ).loc main_arg3))) (arr2 (m ((c.tc : Thread nD τ).loc main_arg5)))
          (arr2 (m ((c.tc : Thread nD τ).loc main_arg7))) (arr1 (m ((c.tc : Thread nD τ).loc main_arg2)))
          (arr1 (m ((c.tc : Thread nD τ).loc main_arg4))) (arr1 (m ((c.tc : Thread nD τ).loc main_arg6)))
          (arr1 (m ((c.tc : Thread nD τ).loc main_arg8))) s b n := by
  show Cert.ReferenceIdeal.Value.res_main_v43 (F := Ideal) m c (ix3 s b n) = _
  rw [val_main_v43_eq]
  exact out_at _ _ _ _ _ _ _ _ _ b s n

end Cert.ReferenceIdeal.RefValue

end
-- ==== Proof.FlashMath.lean ====
import proofs.«410688_j9775345566104_3_alg».proof.Proof.Spec
import Mathlib.Data.EReal.Operations
import Mathlib.Data.Finset.Lattice.Fold
import Mathlib.Algebra.BigOperators.Fin
import Mathlib.Algebra.BigOperators.Field
import Mathlib.Algebra.BigOperators.Ring.Finset
import Mathlib.Algebra.Order.BigOperators.Group.Finset
import Mathlib.Analysis.Real.Sqrt
import Mathlib.Analysis.Complex.Exponential

noncomputable section

namespace Cert.Spec

open Idealize.ShloMosaic

theorem ofBits_eighth : Ideal.ofBits .f32 0x3E000000#32 = (((1 / 8 : ℝ)) : EReal) := by
  simp [Ideal.ofBits, Ideal.ieee, -EReal.coe_mul]; norm_num

-- Multiplying by one eighth is dividing by the square root of 64.
theorem scaleK_eq_scaleR (x : EReal) : scaleK x = scaleR x := by
  have h64 : Ideal.ofBits .f32 0x42800000#32 = ((64 : ℝ) : EReal) := by
    simp [Ideal.ofBits, Ideal.ieee, -EReal.coe_mul]; norm_num
  have hs : Real.sqrt 64 = 8 := by rw [show (64 : ℝ) = 8 ^ 2 by norm_num, Real.sqrt_sq (by norm_num)]
  unfold scaleK scaleR
  rw [ofBits_eighth, h64, Ideal.sqrt_coe, if_neg (by norm_num), hs, Ideal.div_coe (by norm_num) x]

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_lo_hi {M : Type} [AddCommMonoid M] (g : Fin 2048 → M) :
    ∑ k, g k = ∑ k, lo g k + ∑ k, hi g k := by
  show ∑ k : Fin (1024 + 1024), g k = _
  rw [Fin.sum_univ_add]
  rfl

theorem rowMax_lo_hi (sc : Fin 2048 → EReal) : rowMax sc = max (rowMax (lo sc)) (rowMax (hi sc)) := by
  refine le_antisymm (Finset.sup_le fun k _ => ?_) (max_le (Finset.sup_le fun k _ => Finset.le_sup (f := sc) (Finset.mem_univ _))
    (Finset.sup_le fun k _ => Finset.le_sup (f := sc) (Finset.mem_univ _)))
  by_cases hk : k.val < 1024
  · exact le_max_of_le_left (Finset.le_sup (f := lo sc) (Finset.mem_univ (⟨k.val, hk⟩ : Fin 1024)))
  · have := k.isLt
    exact (congrArg sc (Fin.ext (by show k.val = 1024 + (k.val - 1024); omega))).le.trans
      (le_max_of_le_right (Finset.le_sup (f := hi sc) (Finset.mem_univ (⟨k.val - 1024, by omega⟩ : Fin 1024))))

-- The real weight of a score against the shift m: zero for a masked score, an exponential otherwise.
def ew {n : ℕ} (f : Fin n → EReal) (m : ℝ) (k : Fin n) : ℝ :=
  if f k = ⊥ then 0 else Real.exp ((f k).toReal - m)

theorem exp_sub_coe {n : ℕ} (f : Fin n → EReal) (hf : ∀ k, f k ≠ ⊤) (m : ℝ) (k : Fin n) :
    Ideal.exp (f k - (m : EReal)) = (ew f m k : EReal) := by
  unfold ew
  have h := hf k
  revert h
  induction f k using EReal.rec with
  | bot => intro _; rw [EReal.bot_sub, Ideal.exp_bot, if_pos rfl, EReal.coe_zero]
  | coe r => intro _; rw [← EReal.coe_sub, Ideal.exp_coe, if_neg (EReal.coe_ne_bot r), EReal.toReal_coe]
  | top => intro h; exact absurd rfl h

theorem sum_ew_pos {n : ℕ} (f : Fin n → EReal) (m : ℝ) (h : ∃ k, f k ≠ ⊥) : 0 < ∑ k, ew f m k := by
  obtain ⟨k, hk⟩ := h
  refine Finset.sum_pos' (fun i _ => ?_) ⟨k, Finset.mem_univ _, ?_⟩ <;> unfold ew
  · split
    exacts [le_rfl, (Real.exp_pos _).le]
  · rw [if_neg hk]; exact Real.exp_pos _

theorem exp_mul_ew {n : ℕ} (f : Fin n → EReal) (a m : ℝ) (k : Fin n) :
    Real.exp (a - m) * ew f a k = ew f m k := by
  unfold ew; split
  · exact mul_zero _
  · rw [← Real.exp_add]; congr 1; ring

theorem rowMax_real {n : ℕ} (f : Fin n → EReal) (hf : ∀ k, f k ≠ ⊤) (h : ∃ k, f k ≠ ⊥) :
    ∃ m : ℝ, rowMax f = (m : EReal) := by
  obtain ⟨k, hk⟩ := h
  obtain ⟨i, _, hi⟩ := Finset.exists_mem_eq_sup Finset.univ ⟨k, Finset.mem_univ _⟩ f
  have hle : f k ≤ f i := hi ▸ Finset.le_sup (f := f) (Finset.mem_univ k)
  exact ⟨(f i).toReal, by rw [EReal.coe_toReal (hf i) fun e => hk (le_bot_iff.mp (e ▸ hle))]; exact hi⟩

theorem softmaxRow_real (sc : Fin 2048 → EReal) (w : Fin 2048 → ℝ) (hsc : ∀ k, sc k ≠ ⊤) (h : ∃ k, sc k ≠ ⊥)
    (m : ℝ) (hm : rowMax sc = (m : EReal)) :
    softmaxRow sc (fun k => (w k : EReal)) = (((∑ k, ew sc m k * w k) / (∑ k, ew sc m k) : ℝ) : EReal) := by
  have hD : (∑ k, ew sc m k) ≠ 0 := (sum_ew_pos sc m h).ne'
  unfold softmaxRow
  rw [hm]
  simp only [exp_sub_coe sc hsc m]
  rw [← coe_sum]
  simp only [Ideal.div_coe hD, ← EReal.coe_mul]
  rw [← coe_sum]
  congr 1
  rw [Finset.sum_div]
  apply Finset.sum_congr rfl
  intro k _
  rw [one_div]; ring

theorem step_init_real (f : Fin 1024 → EReal) (w : Fin 1024 → ℝ) (hf : ∀ k, f k ≠ ⊤) (m : ℝ) (hm : rowMax f = (m : EReal)) :
    step init f (fun k => (w k : EReal))
      = ((m : EReal), ((∑ k, ew f m k : ℝ) : EReal), ((∑ k, ew f m k * w k : ℝ) : EReal)) := by
  unfold step init
  simp only [max_bot_left, mul_zero, zero_add, hm, exp_sub_coe f hf m, ← EReal.coe_mul, ← coe_sum]

theorem step_real (a d n : ℝ) (f : Fin 1024 → EReal) (w : Fin 1024 → ℝ) (hf : ∀ k, f k ≠ ⊤) (m : ℝ)
    (hm : max (a : EReal) (rowMax f) = (m : EReal)) :
    step ((a : EReal), (d : EReal), (n : EReal)) f (fun k => (w k : EReal))
      = ((m : EReal), ((Real.exp (a - m) * d + ∑ k, ew f m k : ℝ) : EReal),
          ((Real.exp (a - m) * n + ∑ k, ew f m k * w k : ℝ) : EReal)) := by
  unfold step
  simp only [hm, exp_sub_coe f hf m, ← EReal.coe_sub, Ideal.exp_coe, ← EReal.coe_mul, ← coe_sum, ← EReal.coe_add]

theorem quot_real (m d n : ℝ) (hd : d ≠ 0) : quot ((m : EReal), (d : EReal), (n : EReal)) = ((n / d : ℝ) : EReal) := by
  unfold quot
  show Ideal.div (n : EReal) (d : EReal) = _
  rw [Ideal.div_coe hd, ← EReal.coe_mul, mul_one_div]

-- Two streamed blocks: rescaling the first block's sums to the final maximum gives the sums over the whole row.
theorem flashRow2_eq (sc vv : Fin 2048 → EReal)
    (hsc : ∀ k, sc k ≠ ⊤) (h0 : ∃ k : Fin 1024, lo sc k ≠ ⊥) (hv : ∀ k, IsReal (vv k)) :
    flashRow2 (lo sc) (lo vv) (hi sc) (hi vv) = softmaxRow sc vv := by
  choose w hw using hv
  obtain rfl : vv = fun k => (w k : EReal) := funext hw
  have hlo : ∀ k, lo sc k ≠ ⊤ := fun k => hsc _
  have hhi : ∀ k, hi sc k ≠ ⊤ := fun k => hsc _
  obtain ⟨m0, hm0⟩ := rowMax_real (lo sc) hlo h0
  have h1 : ∃ k, sc k ≠ ⊥ := by obtain ⟨k, hk⟩ := h0; exact ⟨_, hk⟩
  obtain ⟨m, hm⟩ := rowMax_real sc hsc h1
  have hmax : max ((m0 : ℝ) : EReal) (rowMax (hi sc)) = (m : EReal) := by rw [← hm0, ← rowMax_lo_hi, hm]
  have el : lo (fun k => (w k : EReal)) = fun k => ((lo w k : ℝ) : EReal) := rfl
  have eh : hi (fun k => (w k : EReal)) = fun k => ((hi w k : ℝ) : EReal) := rfl
  have eD : Real.exp (m0 - m) * ∑ k, ew (lo sc) m0 k + ∑ k, ew (hi sc) m k = ∑ k, ew sc m k := by
    rw [Finset.mul_sum, sum_lo_hi (fun k => ew sc m k)]
    refine congrArg₂ (· + ·) (Finset.sum_congr rfl fun k _ => ?_) rfl
    exact exp_mul_ew (lo sc) m0 m k
  have eN : Real.exp (m0 - m) * ∑ k, ew (lo sc) m0 k * lo w k + ∑ k, ew (hi sc) m k * hi w k
      = ∑ k, ew sc m k * w k := by
    rw [Finset.mul_sum, sum_lo_hi (fun k => ew sc m k * w k)]
    refine congrArg₂ (· + ·) (Finset.sum_congr rfl fun k _ => ?_) rfl
    rw [← mul_assoc, exp_mul_ew]; rfl
  unfold flashRow2
  rw [softmaxRow_real sc w hsc h1 m hm, el, eh, step_init_real (lo sc) (lo w) hlo m0 hm0,
    step_real _ _ _ (hi sc) (hi w) hhi m hmax, eD, eN, quot_real _ _ _ (sum_ew_pos sc m h1).ne']

-- A second block whose scores are all masked leaves the state unchanged, so one block is the case above.
theorem flashRow1_eq (sc vv : Fin 2048 → EReal)
    (hsc : ∀ k, sc k ≠ ⊤) (h0 : ∃ k : Fin 1024, lo sc k ≠ ⊥) (hhi : ∀ k : Fin 1024, hi sc k = ⊥)
    (hv : ∀ k, IsReal (vv k)) :
    flashRow1 (lo sc) (lo vv) = softmaxRow sc vv := by
  rw [← flashRow2_eq sc vv hsc h0 hv]
  obtain ⟨m, hm⟩ := rowMax_real (lo sc) (fun k => hsc _) h0
  choose w hw using hv
  obtain rfl : vv = fun k => (w k : EReal) := funext hw
  have hb : rowMax (hi sc) = ⊥ := le_bot_iff.mp (Finset.sup_le fun k _ => (hhi k).le)
  unfold flashRow1 flashRow2
  rw [show lo (fun k => (w k : EReal)) = fun k => ((lo w k : ℝ) : EReal) from rfl,
    step_init_real (lo sc) (lo w) (fun k => hsc _) m hm]
  congr 1
  unfold step
  simp only [hb, max_bot_right, hhi, EReal.bot_sub, Ideal.exp_bot, zero_mul, Finset.sum_const_zero, add_zero, ← EReal.coe_sub,
    sub_self, Ideal.exp_coe, Real.exp_zero, EReal.coe_one, one_mul]

end Cert.Spec

end
-- ==== Proof.SpecEq.lean ====
import proofs.«410688_j9775345566104_3_alg».proof.Proof.FlashMath

noncomputable section

namespace Cert.Spec

open Idealize.ShloMosaic

theorem IsReal.add {a b : EReal} (ha : IsReal a) (hb : IsReal b) : IsReal (a + b) := by
  obtain ⟨r, rfl⟩ := ha; obtain ⟨t, rfl⟩ := hb; exact ⟨r + t, (EReal.coe_add r t).symm⟩

theorem IsReal.mul {a b : EReal} (ha : IsReal a) (hb : IsReal b) : IsReal (a * b) := by
  obtain ⟨r, rfl⟩ := ha; obtain ⟨t, rfl⟩ := hb; exact ⟨r * t, (EReal.coe_mul r t).symm⟩

theorem IsReal.sum {ι : Type} (s : Finset ι) (f : ι → EReal) (h : ∀ i, IsReal (f i)) :
    IsReal (∑ i ∈ s, f i) :=
  Finset.sum_induction f IsReal (fun _ _ => IsReal.add) ⟨0, EReal.coe_zero.symm⟩ fun i _ => h i

theorem IsReal.ne_top {a : EReal} (ha : IsReal a) : a ≠ ⊤ := by
  obtain ⟨r, rfl⟩ := ha; exact EReal.coe_ne_top r

theorem IsReal.ne_bot {a : EReal} (ha : IsReal a) : a ≠ ⊥ := by
  obtain ⟨r, rfl⟩ := ha; exact EReal.coe_ne_bot r

-- With real scores up to the query position and bottom beyond it, the streamed row is the closed-form softmax row.
theorem flashOut_eq (qkv : Fin 2048 → Fin 3072 → EReal) (s : Fin 2048) (j : Fin 1024)
    (hr : ∀ k' : Fin 2048, k'.val ≤ s.val → IsReal (scoresK qkv (hd j) s k'))
    (hv : ∀ k', IsReal (qkv k' (vcol (hd j) (dd j)))) :
    flashOut qkv s j = softmaxRow (scoresK qkv (hd j) s) (fun k' => qkv k' (vcol (hd j) (dd j))) := by
  have htop : ∀ k', scoresK qkv (hd j) s k' ≠ ⊤ := fun k' => by
    by_cases hk : k'.val ≤ s.val
    · exact (hr k' hk).ne_top
    · unfold scoresK; rw [if_neg hk]; exact bot_ne_top
  have h0 : ∃ k : Fin 1024, lo (scoresK qkv (hd j) s) k ≠ ⊥ := ⟨⟨0, by omega⟩, (hr _ (Nat.zero_le _)).ne_bot⟩
  unfold flashOut
  split
  · next hs => exact flashRow1_eq _ _ htop h0 (fun k => by unfold hi scoresK; rw [if_neg (by simp only; omega)]) hv
  · exact flashRow2_eq _ _ htop h0 hv

theorem isReal_proj (x : Fin 2048 → Fin 2 → Fin 1024 → EReal) (W : Fin 1024 → Fin 1024 → EReal)
    (bias : Fin 1024 → EReal) (hx : ∀ s b k, IsReal (x s b k)) (hW : ∀ e k, IsReal (W e k))
    (hb : ∀ e, IsReal (bias e)) (s : Fin 2048) (b : Fin 2) (e : Fin 1024) : IsReal (proj x W bias s b e) :=
  (IsReal.sum _ _ fun k => (hx s b k).mul (hW e k)).add (hb e)

section fused
variable (x : Fin 2048 → Fin 2 → Fin 1024 → EReal) (Wq Wk Wv : Fin 1024 → Fin 1024 → EReal)
  (bq bk bv : Fin 1024 → EReal)

-- Column n of the fused projection is column n % 1024 of the projection whose block holds n.
theorem qkvK_at (s : Fin 2048) (b : Fin 2) (p : Fin 3) (n : Fin 3072) (j : Fin 1024) (hn : n.val = p.val * 1024 + j.val) :
    qkvK x Wq Wk Wv bq bk bv s b n = proj x (![Wq, Wk, Wv] p) (![bq, bk, bv] p) s b j := by
  unfold qkvK proj
  rw [cat3_at Wq Wk Wv p j n hn, cat3_at bq bk bv p j n hn]

theorem qkvK_qcol (s : Fin 2048) (b : Fin 2) (h : Fin 16) (d : Fin 64) :
    qkvK x Wq Wk Wv bq bk bv s b (qcol h d) = proj x Wq bq s b (col h d) :=
  qkvK_at x Wq Wk Wv bq bk bv s b 0 _ _ (Nat.zero_add _).symm

theorem qkvK_kcol (s : Fin 2048) (b : Fin 2) (h : Fin 16) (d : Fin 64) :
    qkvK x Wq Wk Wv bq bk bv s b (kcol h d) = proj x Wk bk s b (col h d) :=
  qkvK_at x Wq Wk Wv bq bk bv s b 1 _ _ rfl

theorem qkvK_vcol (s : Fin 2048) (b : Fin 2) (h : Fin 16) (d : Fin 64) :
    qkvK x Wq Wk Wv bq bk bv s b (vcol h d) = proj x Wv bv s b (col h d) :=
  qkvK_at x Wq Wk Wv bq bk bv s b 2 _ _ rfl

theorem scoresK_eq (b : Fin 2) (h : Fin 16) (s k' : Fin 2048) :
    scoresK (fun s' n => qkvK x Wq Wk Wv bq bk bv s' b n) h s k'
      = scoresR (fun s' d => proj x Wq bq s' b (col h d)) (fun s' d => proj x Wk bk s' b (col h d)) s k' := by
  unfold scoresK scoresR
  simp only [scaleK_eq_scaleR, qkvK_qcol, qkvK_kcol]

variable (hx : ∀ s b k, IsReal (x s b k)) (hWq : ∀ e k, IsReal (Wq e k)) (hWk : ∀ e k, IsReal (Wk e k))
  (hWv : ∀ e k, IsReal (Wv e k)) (hbq : ∀ e, IsReal (bq e)) (hbk : ∀ e, IsReal (bk e)) (hbv : ∀ e, IsReal (bv e))
include hx hWq hWk hWv hbq hbk hbv

theorem ctxK_eq_ctxR (s : Fin 2048) (b : Fin 2) (j : Fin 1024) :
    ctxK x Wq Wk Wv bq bk bv b s j = ctxR x Wq Wk Wv bq bk bv s b j := by
  unfold ctxK ctxR
  rw [flashOut_eq _ s j (fun k' hk => by
      unfold scoresK scaleK
      rw [if_pos hk]
      refine IsReal.mul (IsReal.sum _ _ fun d => ?_) ⟨1 / 8, ofBits_eighth⟩
      simp only [qkvK_qcol, qkvK_kcol]
      exact (isReal_proj x Wq bq hx hWq hbq s b _).mul (isReal_proj x Wk bk hx hWk hbk k' b _))
    (fun k' => by simp only [qkvK_vcol]; exact isReal_proj x Wv bv hx hWv hbv k' b _)]
  exact congrArg₂ softmaxRow (funext (scoresK_eq x Wq Wk Wv bq bk bv b (hd j) s))
    (funext fun k' => qkvK_vcol x Wq Wk Wv bq bk bv k' b (hd j) (dd j))

end fused

theorem outK_eq_outR (x : Fin 2048 → Fin 2 → Fin 1024 → EReal) (Wq Wk Wv Wo : Fin 1024 → Fin 1024 → EReal)
    (bq bk bv bo : Fin 1024 → EReal)
    (hx : ∀ s b k, IsReal (x s b k)) (hWq : ∀ e k, IsReal (Wq e k)) (hWk : ∀ e k, IsReal (Wk e k))
    (hWv : ∀ e k, IsReal (Wv e k)) (hbq : ∀ e, IsReal (bq e)) (hbk : ∀ e, IsReal (bk e)) (hbv : ∀ e, IsReal (bv e)) :
    outK x Wq Wk Wv Wo bq bk bv bo = outR x Wq Wk Wv Wo bq bk bv bo := by
  funext s b n
  unfold outK outR
  simp only [ctxK_eq_ctxR x Wq Wk Wv bq bk bv hx hWq hWk hWv hbq hbk hbv]

end Cert.Spec

end
-- ==== Proof.PreFin.lean ====
import proofs.«410688_j9775345566104_3_alg».proof.Pre_finite_inputs
import proofs.«410688_j9775345566104_3_alg».proof.Proof.Spec
import Idealize.ShloMosaic.Lib.ReduceAll
import Idealize.ShloMosaic.Lib.ValueIdx

noncomputable section

namespace Cert.Proof.PreFin

open Idealize.ShloMosaic Idealize.ShloMosaic.ValueIdx Cert.Pre_finite_inputs Cert.Spec

instance : Subsingleton S_.Idx := ⟨fun a b => funext fun d => d.elim0⟩

-- An entry whose absolute value compares below infinity is a real number.
theorem isReal_of_lt (x : EReal)
    (h : FloatOps.cmpf (F := Ideal) (φ := .f32) .olt (FloatOps.hostAbsf (F := Ideal) (φ := .f32) x) (Ideal.ofBits .f32 0x7F800000#32) = 1#1) :
    IsReal x := by
  have h' : Ideal.cmp .olt (max x (-x)) (Ideal.ofBits .f32 0x7F800000#32) = 1#1 := h
  rw [show Ideal.ofBits .f32 0x7F800000#32 = ⊤ by simp [Ideal.ofBits, Ideal.ieee]] at h'
  unfold Ideal.cmp at h'
  have hlt : max x (-x) < ⊤ := by by_contra hn; simp [hn] at h'
  rw [max_lt_iff] at hlt
  induction x using EReal.rec with
  | bot => simp at hlt
  | coe r => exact ⟨r, rfl⟩
  | top => simp at hlt

variable [Cert.Pre_finite_inputs.Facts]

theorem reals_of_pre (a0 : FVec Ideal S2048x2x1024 .f32) (a1 : FVec Ideal S1024x1024 .f32) (a2 : FVec Ideal S1024 .f32)
    (a3 : FVec Ideal S1024x1024 .f32) (a4 : FVec Ideal S1024 .f32) (a5 : FVec Ideal S1024x1024 .f32) (a6 : FVec Ideal S1024 .f32)
    (a7 : FVec Ideal S1024x1024 .f32) (a8 : FVec Ideal S1024 .f32)
    (h : Cert.Pre_finite_inputs.fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have h0 := congrFun h ix0
  dsimp only [fn, fn_part1, fn_part2] at h0
  obtain ⟨h0, -⟩ := IntOp.andi_eq_one.1 h0
  obtain ⟨h0, -⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨?_, ?_, ?_, ?_, ?_, ?_, ?_⟩ <;> intro i <;> apply isReal_of_lt
  exacts [Host.reduce_andi_all _ _ _ _ _ h0 i, Host.reduce_andi_all _ _ _ _ _ h1 i, Host.reduce_andi_all _ _ _ _ _ h2 i,
    Host.reduce_andi_all _ _ _ _ _ h3 i, Host.reduce_andi_all _ _ _ _ _ h4 i, Host.reduce_andi_all _ _ _ _ _ h5 i,
    Host.reduce_andi_all _ _ _ _ _ h6 i]

end Cert.Proof.PreFin

end
-- ==== Proof.lean ====
import proofs.«410688_j9775345566104_3_alg».proof.Defs
import proofs.«410688_j9775345566104_3_alg».proof.Proof.Gen.Kernel
import proofs.«410688_j9775345566104_3_alg».proof.Proof.Gen.KernelIdeal
import proofs.«410688_j9775345566104_3_alg».proof.Proof.Gen.ReferenceIdeal
import proofs.«410688_j9775345566104_3_alg».proof.Proof.Gen.Pre_finite_inputs
import proofs.«410688_j9775345566104_3_alg».proof.Proof.Gen.ReferenceIdeal.Run
import proofs.«410688_j9775345566104_3_alg».proof.Proof.Run
import proofs.«410688_j9775345566104_3_alg».proof.Proof.WRun
import proofs.«410688_j9775345566104_3_alg».proof.Proof.KerVal
import proofs.«410688_j9775345566104_3_alg».proof.Proof.RefVal
import proofs.«410688_j9775345566104_3_alg».proof.Proof.SpecEq
import proofs.«410688_j9775345566104_3_alg».proof.Proof.PreFin
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program terminates, faults nowhere and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the idealized program: the same argument at the exact instance. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The mask's finite fill value is named `-∞`, at both of its sites. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- On real inputs the streamed attention of the projections is the closed-form softmax attention of the reference. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W7 m ρ c (Proc.devRef .tc Cert.KernelIdeal.main_v18), ?_, ?_⟩
  · exact Cert.KernelIdeal.Hand.run_main m ρ (fun s h c =>
      ⟨h c _ (Cert.KernelIdeal.Hand.mem_uc Cert.KernelIdeal.main_v18 (by decide)),
       (h c _ (Cert.KernelIdeal.Hand.mem_uc Cert.KernelIdeal.main_arg0 (by decide))).trans (Cert.KernelIdeal.Hand.W7_main_arg0 m ρ c),
       (h c _ (Cert.KernelIdeal.Hand.mem_uc Cert.KernelIdeal.main_arg1 (by decide))).trans (Cert.KernelIdeal.Hand.W7_main_arg1 m ρ c),
       (h c _ (Cert.KernelIdeal.Hand.mem_uc Cert.KernelIdeal.main_arg2 (by decide))).trans (Cert.KernelIdeal.Hand.W7_main_arg2 m ρ c),
       (h c _ (Cert.KernelIdeal.Hand.mem_uc Cert.KernelIdeal.main_arg3 (by decide))).trans (Cert.KernelIdeal.Hand.W7_main_arg3 m ρ c),
       (h c _ (Cert.KernelIdeal.Hand.mem_uc Cert.KernelIdeal.main_arg4 (by decide))).trans (Cert.KernelIdeal.Hand.W7_main_arg4 m ρ c),
       (h c _ (Cert.KernelIdeal.Hand.mem_uc Cert.KernelIdeal.main_arg5 (by decide))).trans (Cert.KernelIdeal.Hand.W7_main_arg5 m ρ c),
       (h c _ (Cert.KernelIdeal.Hand.mem_uc Cert.KernelIdeal.main_arg6 (by decide))).trans (Cert.KernelIdeal.Hand.W7_main_arg6 m ρ c),
       (h c _ (Cert.KernelIdeal.Hand.mem_uc Cert.KernelIdeal.main_arg7 (by decide))).trans (Cert.KernelIdeal.Hand.W7_main_arg7 m ρ c),
       (h c _ (Cert.KernelIdeal.Hand.mem_uc Cert.KernelIdeal.main_arg8 (by decide))).trans (Cert.KernelIdeal.Hand.W7_main_arg8 m ρ c)⟩)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := Cert.Proof.PreFin.reals_of_pre _ _ _ _ _ _ _ _ _ (hpre c)
    funext i
    obtain ⟨s, b, n, rfl⟩ : ∃ s b n, i = ix3 s b n := ⟨i 0, i 1, i 2, eq_ix3 i⟩
    refine (Cert.ReferenceIdeal.RefValue.ref_value m' c s b n).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    refine Eq.trans ?_ (Cert.KernelIdeal.Hand.kernel_value m ρ c s b n).symm
    exact (congrFun (congrFun (congrFun (Cert.Spec.outK_eq_outR _ _ _ _ _ _ _ _ _
      (fun s b k => h0 _) (fun e k => h1 _) (fun e k => h3 _) (fun e k => h5 _) (fun e => h2 _) (fun e => h4 _) (fun e => h6 _)) s) b) n).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
